-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S32x1 : Shape := ⟨2, ![32, 1]⟩
abbrev S35x64 : Shape := ⟨2, ![35, 64]⟩
abbrev S64 : Shape := ⟨1, ![64]⟩
abbrev S64x64 : Shape := ⟨2, ![64, 64]⟩
abbrev S99x64 : Shape := ⟨2, ![99, 64]⟩
abbrev S64x4 : Shape := ⟨2, ![64, 4]⟩
abbrev S4 : Shape := ⟨1, ![4]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel
  bcast_S_S32x1 : S_.BroadcastsInDim S32x1 (![] : Fin 0 → Fin S32x1.rank)
  reducesTo_S32x1_S_d0_1 : S32x1.ReducesTo [0, 1] S_
  bcast_S_S35x64 : S_.BroadcastsInDim S35x64 (![] : Fin 0 → Fin S35x64.rank)
  reducesTo_S35x64_S_d0_1 : S35x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S99x64 : S_.BroadcastsInDim S99x64 (![] : Fin 0 → Fin S99x64.rank)
  reducesTo_S99x64_S_d0_1 : S99x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg11 : FVec F S4 .f32) (main_v48 : IVec S_ 1) (main_v49 : FVec F S64x4 .f32) (main_v50 : FVec F S64x4 .f32) : IVec S_ 1 :=
  let main_v51 : IVec S64x4 1 := cmpf .olt main_v49 main_v50
  let main_c_19 : IVec S_ 1 := constantI S_ 1 1#1
  let main_v52 : IVec S_ 1 := (fun x v => Host.reduce IntOp.andi x v reducesTo_S64x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x4 .f32) (main_arg11 : FVec F S4 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x4 .f32 := Host.absf main_arg10
  let main_cst_18 : FVec F S_ .f32 := constant S_ .f32 0x7F800000#32
  let main_v50 : FVec F S64x4 .f32 := broadcastInDim S64x4 ![] bcast_S_S64x4 main_cst_18
  fn_part3 (F := F) main_arg11 main_v48 main_v49 main_v50

def fn_part1 {F : FTy → Type} [FloatOps F] (main_arg4 : FVec F S64x64 .f32) (main_arg5 : FVec F S64 .f32) (main_arg6 : FVec F S99x64 .f32) (main_arg7 : FVec F S64 .f32) (main_arg8 : FVec F S64x64 .f32) (main_arg9 : FVec F S64 .f32) (main_arg10 : FVec F S64x4 .f32) (main_arg11 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S99x64 .f32 := Host.absf main_arg6
  let main_cst_10 : FVec F S_ .f32 := constant S_ .f32 0x7F800000#32
  let main_v30 : FVec F S99x64 .f32 := broadcastInDim S99x64 ![] bcast_S_S99x64 main_cst_10
  let main_v31 : IVec S99x64 1 := cmpf .olt main_v29 main_v30
  let main_c_11 : IVec S_ 1 := constantI S_ 1 1#1
  let main_v32 : IVec S_ 1 := (fun x v => Host.reduce IntOp.andi x v reducesTo_S99x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x1x1024x1024 .f32) (main_arg1 : FVec F S32x1 .f32) (main_arg2 : FVec F S35x64 .f32) (main_arg3 : FVec F S64 .f32) (main_arg4 : FVec F S64x64 .f32) (main_arg5 : FVec F S64 .f32) (main_arg6 : FVec F S99x64 .f32) (main_arg7 : FVec F S64 .f32) (main_arg8 : FVec F S64x64 .f32) (main_arg9 : FVec F S64 .f32) (main_arg10 : FVec F S64x4 .f32) (main_arg11 : FVec F S4 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1 .f32 := Host.absf main_arg1
  let main_cst_0 : FVec F S_ .f32 := constant S_ .f32 0x7F800000#32
  let main_v5 : FVec F S32x1 .f32 := broadcastInDim S32x1 ![] bcast_S_S32x1 main_cst_0
  let main_v6 : IVec S32x1 1 := cmpf .olt main_v4 main_v5
  let main_c_1 : IVec S_ 1 := constantI S_ 1 1#1
  let main_v7 : IVec S_ 1 := (fun x v => Host.reduce IntOp.andi x v reducesTo_S32x1_S_d0_1 h_S_) main_v6 main_c_1
  let main_v8 : IVec S_ 1 := andi main_v3 main_v7
  let main_v9 : FVec F S35x64 .f32 := Host.absf main_arg2
  let main_cst_2 : FVec F S_ .f32 := constant S_ .f32 0x7F800000#32
  let main_v10 : FVec F S35x64 .f32 := broadcastInDim S35x64 ![] bcast_S_S35x64 main_cst_2
  let main_v11 : IVec S35x64 1 := cmpf .olt main_v9 main_v10
  let main_c_3 : IVec S_ 1 := constantI S_ 1 1#1
  let main_v12 : IVec S_ 1 := (fun x v => Host.reduce IntOp.andi x v reducesTo_S35x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S32x1x1024x1024 : Shape := ⟨4, ![32, 1, 1024, 1024]⟩
abbrev S32x1 : Shape := ⟨2, ![32, 1]⟩
abbrev S35x64 : Shape := ⟨2, ![35, 64]⟩
abbrev S64 : Shape := ⟨1, ![64]⟩
abbrev S64x64 : Shape := ⟨2, ![64, 64]⟩
abbrev S99x64 : Shape := ⟨2, ![99, 64]⟩
abbrev S64x4 : Shape := ⟨2, ![64, 4]⟩
abbrev S4 : Shape := ⟨1, ![4]⟩
abbrev S32x1024x1024 : Shape := ⟨3, ![32, 1024, 1024]⟩
abbrev S32x32x1024 : Shape := ⟨3, ![32, 32, 1024]⟩
abbrev S32x32 : Shape := ⟨2, ![32, 32]⟩
abbrev S32 : Shape := ⟨1, ![32]⟩
abbrev S32x1x1 : Shape := ⟨3, ![32, 1, 1]⟩
abbrev S_ : Shape := ⟨0, ![]⟩
abbrev S32x34 : Shape := ⟨2, ![32, 34]⟩
abbrev S32x35 : Shape := ⟨2, ![32, 35]⟩
abbrev S32x64 : Shape := ⟨2, ![32, 64]⟩
abbrev S1x64 : Shape := ⟨2, ![1, 64]⟩
abbrev S32x99 : Shape := ⟨2, ![32, 99]⟩
abbrev S32x4 : Shape := ⟨2, ![32, 4]⟩
abbrev S1x4 : Shape := ⟨2, ![1, 4]⟩

abbrev nBuf : Space → Nat
  | .hbm => 86
  | .vmem => 14
  | .smem => 0
  | _ => 0

abbrev bufTy : (tb : Table) → Fin (tcTables nBuf tb) → BufTy
  | .hbm, ⟨0, _⟩ => ⟨S32x1x1024x1024, .f32⟩
  | .hbm, ⟨1, _⟩ => ⟨S32x1, .f32⟩
  | .hbm, ⟨2, _⟩ => ⟨S35x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S99x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x4, .f32⟩
  | .hbm, ⟨11, _⟩ => ⟨S4, .f32⟩
  | .hbm, ⟨12, _⟩ => ⟨S32x1024x1024, .f32⟩
  | .hbm, ⟨13, _⟩ => ⟨S32x1, .f32⟩
  | .hbm, ⟨14, _⟩ => ⟨S32x1, .f32⟩
  | .hbm, ⟨15, _⟩ => ⟨S32x32, .f32⟩
  | .hbm, ⟨16, _⟩ => ⟨S_, .f32⟩
  | .hbm, ⟨17, _⟩ => ⟨S32, .f32⟩
  | .hbm, ⟨18, _⟩ => ⟨S32x1, .f32⟩
  | .hbm, ⟨19, _⟩ => ⟨S32x32, .f32⟩
  | .hbm, ⟨20, _⟩ => ⟨S32x32, .f32⟩
  | .hbm, ⟨21, _⟩ => ⟨S32x34, .f32⟩
  | .hbm, ⟨22, _⟩ => ⟨S32x35, .f32⟩
  | .hbm, ⟨23, _⟩ => ⟨S32x64, .f32⟩
  | .hbm, ⟨24, _⟩ => ⟨S1x64, .f32⟩
  | .hbm, ⟨25, _⟩ => ⟨S32x64, .f32⟩
  | .hbm, ⟨26, _⟩ => ⟨S32x64, .f32⟩
  | .hbm, ⟨27, _⟩ => ⟨S_, .f32⟩
  | .hbm, ⟨28, _⟩ => ⟨S_, .f32⟩
  | .hbm, ⟨29, _⟩ => ⟨S32x64, .f32⟩
  | .hbm, ⟨30, _⟩ => ⟨S32x64, .i1⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S1x64, .f32⟩
  | .hbm, ⟨37, _⟩ => ⟨S32x64, .f32⟩
  | .hbm, ⟨38, _⟩ => ⟨S32x64, .f32⟩
  | .hbm, ⟨39, _⟩ => ⟨S_, .f32⟩
  | .hbm, ⟨40, _⟩ => ⟨S_, .f32⟩
  | .hbm, ⟨41, _⟩ => ⟨S32x64, .f32⟩
  | .hbm, ⟨42, _⟩ => ⟨S32x64, .i1⟩
  | .hbm, ⟨43, _⟩ => ⟨S_, .f32⟩
  | .hbm, ⟨44, _⟩ => ⟨S32x64, .f32⟩
  | .hbm, ⟨45, _⟩ => ⟨S32x64, .f32⟩
  | .hbm, ⟨46, _⟩ => ⟨S32x64, .f32⟩
  | .hbm, ⟨47, _⟩ => ⟨S32x99, .f32⟩
  | .hbm, ⟨48, _⟩ => ⟨S32x64, .f32⟩
  | .hbm, ⟨49, _⟩ => ⟨S1x64, .f32⟩
  | .hbm, ⟨50, _⟩ => ⟨S32x64, .f32⟩
  | .hbm, ⟨51, _⟩ => ⟨S32x64, .f32⟩
  | .hbm, ⟨52, _⟩ => ⟨S_, .f32⟩
  | .hbm, ⟨53, _⟩ => ⟨S_, .f32⟩
  | .hbm, ⟨54, _⟩ => ⟨S32x64, .f32⟩
  | .hbm, ⟨55, _⟩ => ⟨S32x64, .i1⟩
  | .hbm, ⟨56, _⟩ => ⟨S_, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x64, .f32⟩
  | .hbm, ⟨61, _⟩ => ⟨S1x64, .f32⟩
  | .hbm, ⟨62, _⟩ => ⟨S32x64, .f32⟩
  | .hbm, ⟨63, _⟩ => ⟨S32x64, .f32⟩
  | .hbm, ⟨64, _⟩ => ⟨S_, .f32⟩
  | .hbm, ⟨65, _⟩ => ⟨S_, .f32⟩
  | .hbm, ⟨66, _⟩ => ⟨S32x64, .f32⟩
  | .hbm, ⟨67, _⟩ => ⟨S32x64, .i1⟩
  | .hbm, ⟨68, _⟩ => ⟨S_, .f32⟩
  | .hbm, ⟨69, _⟩ => ⟨S32x64, .f32⟩
  | .hbm, ⟨70, _⟩ => ⟨S32x64, .f32⟩
  | .hbm, ⟨71, _⟩ => ⟨S32x64, .f32⟩
  | .hbm, ⟨72, _⟩ => ⟨S32x4, .f32⟩
  | .hbm, ⟨73, _⟩ => ⟨S1x4, .f32⟩
  | .hbm, ⟨74, _⟩ => ⟨S32x4, .f32⟩
  | .hbm, ⟨75, _⟩ => ⟨S32x4, .f32⟩
  | .hbm, ⟨76, _⟩ => ⟨S_, .f32⟩
  | .hbm, ⟨77, _⟩ => ⟨S_, .f32⟩
  | .hbm, ⟨78, _⟩ => ⟨S32x4, .f32⟩
  | .hbm, ⟨79, _⟩ => ⟨S32x4, .i1⟩
  | .hbm, ⟨80, _⟩ => ⟨S_, .f32⟩
  | .hbm, ⟨81, _⟩ => ⟨S32x4, .f32⟩
  | .hbm, ⟨82, _⟩ => ⟨S32x4, .f32⟩
  | .hbm, ⟨83, _⟩ => ⟨S32x4, .f32⟩
  | .hbm, ⟨84, _⟩ => ⟨S32x1024x1024, .f32⟩
  | .hbm, ⟨85, _⟩ => ⟨S32x1x1024x1024, .f32⟩
  | .local _ .vmem, ⟨0, _⟩ => ⟨S32x32x1024, .f32⟩
  | .local _ .vmem, ⟨1, _⟩ => ⟨S32x32x1024, .f32⟩
  | .local _ .vmem, ⟨2, _⟩ => ⟨S32x1, .f32⟩
  | .local _ .vmem, ⟨3, _⟩ => ⟨S32x1, .f32⟩
  | .local _ .vmem, ⟨4, _⟩ => ⟨S32x32x1024, .f32⟩
  | .local _ .vmem, ⟨5, _⟩ => ⟨S32x32x1024, .f32⟩
  | .local _ .vmem, ⟨6, _⟩ => ⟨S32x1, .f32⟩
  | .local _ .vmem, ⟨7, _⟩ => ⟨S32x1, .f32⟩
  | .local _ .vmem, ⟨8, _⟩ => ⟨S32x32, .f32⟩
  | .local _ .vmem, ⟨9, _⟩ => ⟨S32x32x1024, .f32⟩
  | .local _ .vmem, ⟨10, _⟩ => ⟨S32x32x1024, .f32⟩
  | .local _ .vmem, ⟨11, _⟩ => ⟨S32x4, .f32⟩
  | .local _ .vmem, ⟨12, _⟩ => ⟨S32x32x1024, .f32⟩
  | .local _ .vmem, ⟨13, _⟩ => ⟨S32x32x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_call4_cst : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S32x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x32x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S32x1x1024x1024_S32x1024x1024 : S32x1x1024x1024.ShapeCasts S32x1024x1024
  inb_S32x1_S32x1_0_0 : ∀ a, (![0, 0] : Fin 2 → Nat) a + S32x1.size a ≤ S32x1.size a
  h_S32x1 : 0 < S32x1.numel
  inb_S32x32x1024_S32x32x1024_0_0_0 : ∀ a, (![0, 0, 0] : Fin 3 → Nat) a + S32x32x1024.size a ≤ S32x32x1024.size a
  h_S32x32x1024 : 0 < S32x32x1024.numel
  shapeCasts_S32x32x1024_S32x32x1024 : S32x32x1024.ShapeCasts S32x32x1024
  reduces_S32x32x1024_S32x32 : S32x32x1024.Reduces [2] S32x32
  reduces_S32x32_S32 : S32x32.Reduces [1] S32
  shapeCasts_S32x1_S32x1 : S32x1.ShapeCasts S32x1
  shapeCasts_S32_S32x1 : S32.ShapeCasts S32x1
  inb_S32x32_S32x32_0_0 : ∀ a, (![0, 0] : Fin 2 → Nat) a + S32x32.size a ≤ S32x32.size a
  h_S32x32 : 0 < S32x32.numel
  shapeCasts_S32x1_S32x1x1 : S32x1.ShapeCasts S32x1x1
  broadcasts_S32x1x1_S32x32x1024 : S32x1x1.Broadcasts S32x32x1024
  natLt_1_32 : 1 < 32
  inb_S32x32_S32x1_0_0 : ∀ a, (![0, 0] : Fin 2 → Nat) a + S32x1.size a ≤ S32x32.size a
  inb_S32x32_S32x1_0_1 : ∀ a, (![0, 1] : Fin 2 → Nat) a + S32x1.size a ≤ S32x32.size a
  inb_S32x32_S32x1_0_2 : ∀ a, (![0, 2] : Fin 2 → Nat) a + S32x1.size a ≤ S32x32.size a
  inb_S32x32_S32x1_0_3 : ∀ a, (![0, 3] : Fin 2 → Nat) a + S32x1.size a ≤ S32x32.size a
  inb_S32x32_S32x1_0_4 : ∀ a, (![0, 4] : Fin 2 → Nat) a + S32x1.size a ≤ S32x32.size a
  inb_S32x32_S32x1_0_5 : ∀ a, (![0, 5] : Fin 2 → Nat) a + S32x1.size a ≤ S32x32.size a
  inb_S32x32_S32x1_0_6 : ∀ a, (![0, 6] : Fin 2 → Nat) a + S32x1.size a ≤ S32x32.size a
  inb_S32x32_S32x1_0_7 : ∀ a, (![0, 7] : Fin 2 → Nat) a + S32x1.size a ≤ S32x32.size a
  inb_S32x32_S32x1_0_8 : ∀ a, (![0, 8] : Fin 2 → Nat) a + S32x1.size a ≤ S32x32.size a
  inb_S32x32_S32x1_0_9 : ∀ a, (![0, 9] : Fin 2 → Nat) a + S32x1.size a ≤ S32x32.size a
  inb_S32x32_S32x1_0_10 : ∀ a, (![0, 10] : Fin 2 → Nat) a + S32x1.size a ≤ S32x32.size a
  inb_S32x32_S32x1_0_11 : ∀ a, (![0, 11] : Fin 2 → Nat) a + S32x1.size a ≤ S32x32.size a
  inb_S32x32_S32x1_0_12 : ∀ a, (![0, 12] : Fin 2 → Nat) a + S32x1.size a ≤ S32x32.size a
  inb_S32x32_S32x1_0_13 : ∀ a, (![0, 13] : Fin 2 → Nat) a + S32x1.size a ≤ S32x32.size a
  inb_S32x32_S32x1_0_14 : ∀ a, (![0, 14] : Fin 2 → Nat) a + S32x1.size a ≤ S32x32.size a
  inb_S32x32_S32x1_0_15 : ∀ a, (![0, 15] : Fin 2 → Nat) a + S32x1.size a ≤ S32x32.size a
  inb_S32x32_S32x1_0_16 : ∀ a, (![0, 16] : Fin 2 → Nat) a + S32x1.size a ≤ S32x32.size a
  inb_S32x32_S32x1_0_17 : ∀ a, (![0, 17] : Fin 2 → Nat) a + S32x1.size a ≤ S32x32.size a
  inb_S32x32_S32x1_0_18 : ∀ a, (![0, 18] : Fin 2 → Nat) a + S32x1.size a ≤ S32x32.size a
  inb_S32x32_S32x1_0_19 : ∀ a, (![0, 19] : Fin 2 → Nat) a + S32x1.size a ≤ S32x32.size a
  inb_S32x32_S32x1_0_20 : ∀ a, (![0, 20] : Fin 2 → Nat) a + S32x1.size a ≤ S32x32.size a
  inb_S32x32_S32x1_0_21 : ∀ a, (![0, 21] : Fin 2 → Nat) a + S32x1.size a ≤ S32x32.size a
  inb_S32x32_S32x1_0_22 : ∀ a, (![0, 22] : Fin 2 → Nat) a + S32x1.size a ≤ S32x32.size a
  inb_S32x32_S32x1_0_23 : ∀ a, (![0, 23] : Fin 2 → Nat) a + S32x1.size a ≤ S32x32.size a
  inb_S32x32_S32x1_0_24 : ∀ a, (![0, 24] : Fin 2 → Nat) a + S32x1.size a ≤ S32x32.size a
  inb_S32x32_S32x1_0_25 : ∀ a, (![0, 25] : Fin 2 → Nat) a + S32x1.size a ≤ S32x32.size a
  inb_S32x32_S32x1_0_26 : ∀ a, (![0, 26] : Fin 2 → Nat) a + S32x1.size a ≤ S32x32.size a
  inb_S32x32_S32x1_0_27 : ∀ a, (![0, 27] : Fin 2 → Nat) a + S32x1.size a ≤ S32x32.size a
  inb_S32x32_S32x1_0_28 : ∀ a, (![0, 28] : Fin 2 → Nat) a + S32x1.size a ≤ S32x32.size a
  inb_S32x32_S32x1_0_29 : ∀ a, (![0, 29] : Fin 2 → Nat) a + S32x1.size a ≤ S32x32.size a
  inb_S32x32_S32x1_0_30 : ∀ a, (![0, 30] : Fin 2 → Nat) a + S32x1.size a ≤ S32x32.size a
  inb_S32x32_S32x1_0_31 : ∀ a, (![0, 31] : Fin 2 → Nat) a + S32x1.size a ≤ S32x32.size a
  reducesTo_S32x32_S32_d1 : S32x32.ReducesTo [1] S32
  h_S_ : 0 < S_.numel
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  concatenates_S32x32_S32x1_S32x1_S32x34_d1 : Shape.Concatenates [S32x32, S32x1, S32x1] S32x34 1
  concatenates_S32x34_S32x1_S32x35_d1 : Shape.Concatenates [S32x34, S32x1] S32x35 1
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  concatenates_S32x64_S32x35_S32x99_d1 : Shape.Concatenates [S32x64, S32x35] S32x99 1
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S_S32x4 : S_.BroadcastsInDim S32x4 (![] : Fin 0 → Fin S32x4.rank)
  inb_S32x4_S32x4_0_0 : ∀ a, (![0, 0] : Fin 2 → Nat) a + S32x4.size a ≤ S32x4.size a
  h_S32x4 : 0 < S32x4.numel
  shapeCasts_S32x4_S32x4 : S32x4.ShapeCasts S32x4
  slices_S32x4_o0_0_S32x1 : S32x4.Slices ![0, 0] S32x1
  shapeCasts_S32x1_S32 : S32x1.ShapeCasts S32
  shapeCasts_S32_S32x1x1 : S32.ShapeCasts S32x1x1
  slices_S32x4_o0_1_S32x1 : S32x4.Slices ![0, 1] S32x1
  slices_S32x4_o0_2_S32x1 : S32x4.Slices ![0, 2] S32x1
  slices_S32x4_o0_3_S32x1 : S32x4.Slices ![0, 3] S32x1
  shapeCasts_S32x1024x1024_S32x1x1024x1024 : S32x1024x1024.ShapeCasts S32x1x1024x1024
  dot_S32x35_S35x64_S32x64_1_0_0_1_n_n_wf : DotDims.WF S32x35 S35x64 S32x64 [1] [0] [0] [1] [] []
  dot_S32x64_S64x64_S32x64_1_0_0_1_n_n_wf : DotDims.WF S32x64 S64x64 S32x64 [1] [0] [0] [1] [] []
  dot_S32x99_S99x64_S32x64_1_0_0_1_n_n_wf : DotDims.WF S32x99 S99x64 S32x64 [1] [0] [0] [1] [] []
  dot_S32x64_S64x4_S32x4_1_0_0_1_n_n_wf : DotDims.WF S32x64 S64x4 S32x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x1024.size a ≤ S32x1024x1024.size a
  hwx0_0 : ∀ i : grid0.Coords, EltTy.bits .f32 = 32 ∨ (Rect.block (s := S32x1024x1024) S32x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x32x1024.size a ≤ S32x1024x1024.size a
  hwx1_0 : ∀ i : grid1.Coords, EltTy.bits .f32 = 32 ∨ (Rect.block (s := S32x1024x1024) S32x32x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x32x1024.size a ≤ S32x1024x1024.size a
  hwx2_0 : ∀ i : grid2.Coords, EltTy.bits .f32 = 32 ∨ (Rect.block (s := S32x1024x1024) S32x32x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x4.size a ≤ S32x4.size a
  hwx2_1 : ∀ i : grid2.Coords, EltTy.bits .f32 = 32 ∨ (Rect.block (s := S32x4) S32x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x32x1024.size a ≤ S32x1024x1024.size a
  hwx2_2 : ∀ i : grid2.Coords, EltTy.bits .f32 = 32 ∨ (Rect.block (s := S32x1024x1024) S32x32x1024.size (cc2_transform_2 i) (hinb2_2 i)).WholeWords (EltTy.packing .f32)

variable [Facts₀]

def dot_S32x35_S35x64_S32x64_1_0_0_1_n_n : DotDims S32x35 S35x64 S32x64 where
  lhsContracting := [1]
  rhsContracting := [0]
  lhsNonContracting := [0]
  rhsNonContracting := [1]
  lhsBatch := []
  rhsBatch := []
  wf := dot_S32x35_S35x64_S32x64_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x99_S99x64_S32x64_1_0_0_1_n_n : DotDims S32x99 S99x64 S32x64 where
  lhsContracting := [1]
  rhsContracting := [0]
  lhsNonContracting := [0]
  rhsNonContracting := [1]
  lhsBatch := []
  rhsBatch := []
  wf := dot_S32x99_S99x64_S32x64_1_0_0_1_n_n_wf
def dot_S32x64_S64x4_S32x4_1_0_0_1_n_n : DotDims S32x64 S64x4 S32x4 where
  lhsContracting := [1]
  rhsContracting := [0]
  lhsNonContracting := [0]
  rhsNonContracting := [1]
  lhsBatch := []
  rhsBatch := []
  wf := dot_S32x64_S64x4_S32x4_1_0_0_1_n_n_wf

abbrev win0_0 : Pipeline.Window sig grid0 :=
  Pipeline.Window.ofSpec (Memref.whole main_v0) S32x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S32x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S32x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S32x32x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S32x32.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S32x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S32x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S32x32x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x1x1024x1024 : Shape := ⟨4, ![32, 1, 1024, 1024]⟩
abbrev S32x1 : Shape := ⟨2, ![32, 1]⟩
abbrev S35x64 : Shape := ⟨2, ![35, 64]⟩
abbrev S64 : Shape := ⟨1, ![64]⟩
abbrev S64x64 : Shape := ⟨2, ![64, 64]⟩
abbrev S99x64 : Shape := ⟨2, ![99, 64]⟩
abbrev S64x4 : Shape := ⟨2, ![64, 4]⟩
abbrev S4 : Shape := ⟨1, ![4]⟩
abbrev S32x1048576 : Shape := ⟨2, ![32, 1048576]⟩
abbrev S_ : Shape := ⟨0, ![]⟩
abbrev S32 : Shape := ⟨1, ![32]⟩
abbrev S33554432 : Shape := ⟨1, ![33554432]⟩
abbrev S1024 : Shape := ⟨1, ![1024]⟩
abbrev S33554432x1 : Shape := ⟨2, ![33554432, 1]⟩
abbrev S32x32 : Shape := ⟨2, ![32, 32]⟩
abbrev S32x34 : Shape := ⟨2, ![32, 34]⟩
abbrev S32x35 : Shape := ⟨2, ![32, 35]⟩
abbrev S32x64 : Shape := ⟨2, ![32, 64]⟩
abbrev S1x64 : Shape := ⟨2, ![1, 64]⟩
abbrev S32x99 : Shape := ⟨2, ![32, 99]⟩
abbrev S32x4 : Shape := ⟨2, ![32, 4]⟩
abbrev S1x4 : Shape := ⟨2, ![1, 4]⟩
abbrev S32x1x1x1 : Shape := ⟨4, ![32, 1, 1, 1]⟩

abbrev nBuf : Space → Nat
  | .hbm => 165
  | .vmem => 0
  | .smem => 0
  | _ => 0

abbrev hbmTy0_0 (i : Nat) : BufTy := match i % 128 with
  | 0 => ⟨S32x1x1024x1024, .f32⟩
  | 1 => ⟨S32x1, .f32⟩
  | 2 => ⟨S35x64, .f32⟩
  | 3 => ⟨S64, .f32⟩
  | 4 => ⟨S64x64, .f32⟩
  | 5 => ⟨S64, .f32⟩
  | 6 => ⟨S99x64, .f32⟩
  | 7 => ⟨S64, .f32⟩
  | 8 => ⟨S64x64, .f32⟩
  | 9 => ⟨S64, .f32⟩
  | 10 => ⟨S64x4, .f32⟩
  | 11 => ⟨S4, .f32⟩
  | 12 => ⟨S32x1048576, .f32⟩
  | 13 => ⟨S_, .f32⟩
  | 14 => ⟨S32, .f32⟩
  | 15 => ⟨S32x1, .f32⟩
  | 16 => ⟨S_, .f32⟩
  | 17 => ⟨S32, .f32⟩
  | 18 => ⟨S32x1, .f32⟩
  | 19 => ⟨S32x1, .f32⟩
  | 20 => ⟨S_, .f32⟩
  | 21 => ⟨S32x1, .f32⟩
  | 22 => ⟨S32x1, .i1⟩
  | 23 => ⟨S_, .f32⟩
  | 24 => ⟨S32x1, .f32⟩
  | 25 => ⟨S32x1, .f32⟩
  | 26 => ⟨S32x1048576, .f32⟩
  | 27 => ⟨S32x1048576, .f32⟩
  | 28 => ⟨S32x1048576, .f32⟩
  | 29 => ⟨S32x1048576, .f32⟩
  | 30 => ⟨S_, .f32⟩
  | 31 => ⟨S32x1048576, .f32⟩
  | 32 => ⟨S32x1048576, .f32⟩
  | 33 => ⟨S32x1048576, .f32⟩
  | 34 => ⟨S32x1048576, .i32⟩
  | 35 => ⟨S_, .i32⟩
  | 36 => ⟨S_, .i32⟩
  | 37 => ⟨S_, .i32⟩
  | 38 => ⟨S32x1048576, .i32⟩
  | 39 => ⟨S32x1048576, .i32⟩
  | 40 => ⟨S_, .i32⟩
  | 41 => ⟨S32x1048576, .i32⟩
  | 42 => ⟨S32x1048576, .i32⟩
  | 43 => ⟨S32, .i32⟩
  | 44 => ⟨S32x1, .i32⟩
  | 45 => ⟨S_, .i32⟩
  | 46 => ⟨S32x1, .i32⟩
  | 47 => ⟨S32x1, .i32⟩
  | 48 => ⟨S32x1048576, .i32⟩
  | 49 => ⟨S32x1048576, .i32⟩
  | 50 => ⟨S33554432, .i32⟩
  | 51 => ⟨S_, .f32⟩
  | 52 => ⟨S1024, .f32⟩
  | 53 => ⟨S_, .i32⟩
  | 54 => ⟨S33554432, .i32⟩
  | 55 => ⟨S33554432, .i1⟩
  | 56 => ⟨S_, .i32⟩
  | 57 => ⟨S33554432, .i32⟩
  | 58 => ⟨S33554432, .i32⟩
  | 59 => ⟨S33554432, .i32⟩
  | 60 => ⟨S33554432x1, .i32⟩
  | 61 => ⟨S_, .f32⟩
  | 62 => ⟨S33554432, .f32⟩
  | 63 => ⟨S1024, .f32⟩
  | 64 => ⟨S32x32, .f32⟩
  | 65 => ⟨S_, .f32⟩
  | 66 => ⟨S32, .f32⟩
  | 67 => ⟨S32x1, .f32⟩
  | 68 => ⟨S32x32, .f32⟩
  | 69 => ⟨S32x32, .f32⟩
  | 70 => ⟨S32x34, .f32⟩
  | 71 => ⟨S32x35, .f32⟩
  | 72 => ⟨S32x64, .f32⟩
  | 73 => ⟨S1x64, .f32⟩
  | 74 => ⟨S32x64, .f32⟩
  | 75 => ⟨S32x64, .f32⟩
  | 76 => ⟨S_, .f32⟩
  | 77 => ⟨S_, .f32⟩
  | 78 => ⟨S32x64, .f32⟩
  | 79 => ⟨S32x64, .i1⟩
  | 80 => ⟨S_, .f32⟩
  | 81 => ⟨S32x64, .f32⟩
  | 82 => ⟨S32x64, .f32⟩
  | 83 => ⟨S32x64, .f32⟩
  | 84 => ⟨S32x64, .f32⟩
  | 85 => ⟨S1x64, .f32⟩
  | 86 => ⟨S32x64, .f32⟩
  | 87 => ⟨S32x64, .f32⟩
  | 88 => ⟨S_, .f32⟩
  | 89 => ⟨S_, .f32⟩
  | 90 => ⟨S32x64, .f32⟩
  | 91 => ⟨S32x64, .i1⟩
  | 92 => ⟨S_, .f32⟩
  | 93 => ⟨S32x64, .f32⟩
  | 94 => ⟨S32x64, .f32⟩
  | 95 => ⟨S32x64, .f32⟩
  | 96 => ⟨S32x99, .f32⟩
  | 97 => ⟨S32x64, .f32⟩
  | 98 => ⟨S1x64, .f32⟩
  | 99 => ⟨S32x64, .f32⟩
  | 100 => ⟨S32x64, .f32⟩
  | 101 => ⟨S_, .f32⟩
  | 102 => ⟨S_, .f32⟩
  | 103 => ⟨S32x64, .f32⟩
  | 104 => ⟨S32x64, .i1⟩
  | 105 => ⟨S_, .f32⟩
  | 106 => ⟨S32x64, .f32⟩
  | 107 => ⟨S32x64, .f32⟩
  | 108 => ⟨S32x64, .f32⟩
  | 109 => ⟨S32x64, .f32⟩
  | 110 => ⟨S1x64, .f32⟩
  | 111 => ⟨S32x64, .f32⟩
  | 112 => ⟨S32x64, .f32⟩
  | 113 => ⟨S_, .f32⟩
  | 114 => ⟨S_, .f32⟩
  | 115 => ⟨S32x64, .f32⟩
  | 116 => ⟨S32x64, .i1⟩
  | 117 => ⟨S_, .f32⟩
  | 118 => ⟨S32x64, .f32⟩
  | 119 => ⟨S32x64, .f32⟩
  | 120 => ⟨S32x64, .f32⟩
  | 121 => ⟨S32x4, .f32⟩
  | 122 => ⟨S1x4, .f32⟩
  | 123 => ⟨S32x4, .f32⟩
  | 124 => ⟨S32x4, .f32⟩
  | 125 => ⟨S_, .f32⟩
  | 126 => ⟨S_, .f32⟩
  | 127 => ⟨S32x4, .f32⟩
  | _ => ⟨S32x1x1024x1024, .f32⟩

abbrev hbmTy0_1 (i : Nat) : BufTy := match i % 128 with
  | 0 => ⟨S32x4, .i1⟩
  | 1 => ⟨S_, .f32⟩
  | 2 => ⟨S32x4, .f32⟩
  | 3 => ⟨S32x4, .f32⟩
  | 4 => ⟨S32x4, .f32⟩
  | 5 => ⟨S32x1, .f32⟩
  | 6 => ⟨S32, .f32⟩
  | 7 => ⟨S32x1x1x1, .f32⟩
  | 8 => ⟨S32x1x1024x1024, .f32⟩
  | 9 => ⟨S32x1x1024x1024, .f32⟩
  | 10 => ⟨S32x1x1024x1024, .f32⟩
  | 11 => ⟨S32x1x1024x1024, .f32⟩
  | 12 => ⟨S32x1x1024x1024, .f32⟩
  | 13 => ⟨S32x1, .f32⟩
  | 14 => ⟨S32, .f32⟩
  | 15 => ⟨S32x1x1x1, .f32⟩
  | 16 => ⟨S32x1x1024x1024, .f32⟩
  | 17 => ⟨S32x1x1024x1024, .f32⟩
  | 18 => ⟨S32x1x1024x1024, .f32⟩
  | 19 => ⟨S32x1x1024x1024, .f32⟩
  | 20 => ⟨S32x1x1024x1024, .f32⟩
  | 21 => ⟨S32x1, .f32⟩
  | 22 => ⟨S32, .f32⟩
  | 23 => ⟨S32x1x1x1, .f32⟩
  | 24 => ⟨S32x1x1024x1024, .f32⟩
  | 25 => ⟨S32x1x1024x1024, .f32⟩
  | 26 => ⟨S32x1x1024x1024, .f32⟩
  | 27 => ⟨S32x1x1024x1024, .f32⟩
  | 28 => ⟨S32x1x1024x1024, .f32⟩
  | 29 => ⟨S32x1, .f32⟩
  | 30 => ⟨S32, .f32⟩
  | 31 => ⟨S32x1x1x1, .f32⟩
  | 32 => ⟨S32x1x1024x1024, .f32⟩
  | 33 => ⟨S32x1x1024x1024, .f32⟩
  | 34 => ⟨S32x1x1024x1024, .f32⟩
  | 35 => ⟨S32x1x1024x1024, .f32⟩
  | 36 => ⟨S32x1x1024x1024, .f32⟩
  | _ => ⟨S32x1x1024x1024, .f32⟩

abbrev hbmTy (i : Nat) : BufTy := match i / 128 with
  | 0 => hbmTy0_0 i
  | 1 => hbmTy0_1 i
  | _ => ⟨S32x1x1024x1024, .f32⟩

abbrev bufTy : (tb : Table) → Fin (tcTables nBuf tb) → BufTy
  | .hbm, ⟨i, _⟩ => hbmTy i
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_c_7 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_10 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_12 : Ref sig .tc := ⟨.hbm, 88, rfl⟩
abbrev main_call3_cst : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_13 : Ref sig .tc := ⟨.hbm, 101, rfl⟩
abbrev main_call4_cst : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_14 : Ref sig .tc := ⟨.hbm, 113, rfl⟩
abbrev main_call5_cst : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_15 : Ref sig .tc := ⟨.hbm, 125, rfl⟩
abbrev main_call6_cst : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩

abbrev nD : Nat := 1
abbrev τ : Topo := Topo.v7x

variable {F : FTy → Type} [FloatOps F]

class Facts₀ : Prop where
  shapeCasts_S32x1x1024x1024_S32x1048576 : S32x1x1024x1024.ShapeCasts S32x1048576
  reducesTo_S32x1048576_S32_d1 : S32x1048576.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1048576_0_1 : S32x1.BroadcastsInDim S32x1048576 (![0, 1] : Fin 2 → Fin S32x1048576.rank)
  bcast_S_S32x1048576 : S_.BroadcastsInDim S32x1048576 (![] : Fin 0 → Fin S32x1048576.rank)
  shapeCasts_S32x1048576_S33554432 : S32x1048576.ShapeCasts S33554432
  bcast_S_S1024 : S_.BroadcastsInDim S1024 (![] : Fin 0 → Fin S1024.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S1024_S32x32 : S1024.ShapeCasts S32x32
  reducesTo_S32x32_S32_d1 : S32x32.ReducesTo [1] S32
  bcast_S32x1_S32x32_0_1 : S32x1.BroadcastsInDim S32x32 (![0, 1] : Fin 2 → Fin S32x32.rank)
  concatenates_S32x32_S32x1_S32x1_S32x34_d1 : Shape.Concatenates [S32x32, S32x1, S32x1] S32x34 1
  concatenates_S32x34_S32x1_S32x35_d1 : Shape.Concatenates [S32x34, S32x1] S32x35 1
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  concatenates_S32x64_S32x35_S32x99_d1 : Shape.Concatenates [S32x64, S32x35] S32x99 1
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S_S32x4 : S_.BroadcastsInDim S32x4 (![] : Fin 0 → Fin S32x4.rank)
  slices_S32x4_S32x1_0_0 : S32x4.Slices ![0, 0] S32x1
  shapeCasts_S32x1_S32 : S32x1.ShapeCasts S32
  bcast_S32_S32x1x1x1_0 : S32.BroadcastsInDim S32x1x1x1 (![0] : Fin 1 → Fin S32x1x1x1.rank)
  bcast_S32x1x1x1_S32x1x1024x1024_0_1_2_3 : S32x1x1x1.BroadcastsInDim S32x1x1024x1024 (![0, 1, 2, 3] : Fin 4 → Fin S32x1x1024x1024.rank)
  slices_S32x4_S32x1_0_1 : S32x4.Slices ![0, 1] S32x1
  slices_S32x4_S32x1_0_2 : S32x4.Slices ![0, 2] S32x1
  slices_S32x4_S32x1_0_3 : S32x4.Slices ![0, 3] S32x1
  scatter_S1024_S33554432x1_S33554432_n_0_0_1_wf : ScatterDims.WF S1024 S33554432x1 S33554432 [] [0] [0] 1
  dot_S32x35_S35x64_S32x64_1_0_0_1_n_n_wf : DotDims.WF S32x35 S35x64 S32x64 [1] [0] [0] [1] [] []
  dot_S32x64_S64x64_S32x64_1_0_0_1_n_n_wf : DotDims.WF S32x64 S64x64 S32x64 [1] [0] [0] [1] [] []
  dot_S32x99_S99x64_S32x64_1_0_0_1_n_n_wf : DotDims.WF S32x99 S99x64 S32x64 [1] [0] [0] [1] [] []
  dot_S32x64_S64x4_S32x4_1_0_0_1_n_n_wf : DotDims.WF S32x64 S64x4 S32x4 [1] [0] [0] [1] [] []

variable [Facts₀]

def scatter_S1024_S33554432x1_S33554432_n_0_0_1 : ScatterDims S1024 S33554432x1 S33554432 where
  updateWindowDims := []
  insertedWindowDims := [0]
  scatterDimsToOperandDims := [0]
  indexVectorDim := 1
  wf := scatter_S1024_S33554432x1_S33554432_n_0_0_1_wf
def dot_S32x35_S35x64_S32x64_1_0_0_1_n_n : DotDims S32x35 S35x64 S32x64 where
  lhsContracting := [1]
  rhsContracting := [0]
  lhsNonContracting := [0]
  rhsNonContracting := [1]
  lhsBatch := []
  rhsBatch := []
  wf := dot_S32x35_S35x64_S32x64_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x99_S99x64_S32x64_1_0_0_1_n_n : DotDims S32x99 S99x64 S32x64 where
  lhsContracting := [1]
  rhsContracting := [0]
  lhsNonContracting := [0]
  rhsNonContracting := [1]
  lhsBatch := []
  rhsBatch := []
  wf := dot_S32x99_S99x64_S32x64_1_0_0_1_n_n_wf
def dot_S32x64_S64x4_S32x4_1_0_0_1_n_n : DotDims S32x64 S64x4 S32x4 where
  lhsContracting := [1]
  rhsContracting := [0]
  lhsNonContracting := [0]
  rhsNonContracting := [1]
  lhsBatch := []
  rhsBatch := []
  wf := dot_S32x64_S64x4_S32x4_1_0_0_1_n_n_wf

class Facts : Prop extends Facts₀ where

variable [Facts]
-- ==== Proof.BitsR0A.lean ====
import proofs.«104984_j16939351016189_1_alg».proof.Proof.Gen.Kernel.Launch
import proofs.«104984_j16939351016189_1_alg».proof.Proof.Gen.Kernel.Skeleton
import proofs.«104984_j16939351016189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem

variable {F : FTy → Type} [FloatOps F]

local notation "𝕄" => MT nD τ sig Unit (Elt F) ℕ (UR sig nD τ) ℕ

/-- The condition of the body's one conditional; over the grid it holds at the first point only. -/
abbrev R0cond (i : grid0.Coords) : Prop := (Scalar.cmpi .ne (Scalar.extui (Scalar.cmpi .eq (BitVec.ofNat 32 (i 0).val) 0#32)) 0#32) = 1#1

theorem R0hcond : ∀ t : Fin cfg0.N, R0cond (grid0.coords t) ↔ t.val % 32 = 0 :=
  (by decide +kernel : ∀ t : Fin grid0.N, R0cond (grid0.coords t) ↔ t.val % 32 = 0)

abbrev R0VO1 : View sig .tc .vmem S32x1 .f32 := (Memref.whole cc0_stg1_0 : Memref sig .tc .vmem S32x1 .f32).view
abbrev R0VO2 : View sig .tc .vmem S32x1 .f32 := (Memref.whole cc0_stg2_0 : Memref sig .tc .vmem S32x1 .f32).view

abbrev R0ms0 (t : Fin cfg0.N) : Memref sig .tc .vmem S32x32x1024 .f32 := win0_0.stage (cfg0.slots t 0)
abbrev R0hs0 (t : Fin cfg0.N) : (R0ms0 t).IsWhole := hstage0_0 ((cfg0.slots t 0).cast nbuf0_0)
abbrev R0ms1 (t : Fin cfg0.N) : Memref sig .tc .vmem S32x1 .f32 := win0_1.stage (cfg0.slots t 1)
abbrev R0hs1 (t : Fin cfg0.N) : (R0ms1 t).IsWhole := hstage0_1 ((cfg0.slots t 1).cast nbuf0_1)
abbrev R0ms2 (t : Fin cfg0.N) : Memref sig .tc .vmem S32x1 .f32 := win0_2.stage (cfg0.slots t 2)
abbrev R0hs2 (t : Fin cfg0.N) : (R0ms2 t).IsWhole := hstage0_2 ((cfg0.slots t 2).cast nbuf0_2)

variable (c : Dev nD) (i : grid0.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole)

/-- The branch taken: both outputs are overwritten before they are read, so they start at anything; the witnesses are the pieces written. -/
def R0runA (hc0 : R0cond i) (x0 : Vec F S32x32x1024 .f32) :
    Σ' (L1 : List (View.Piece (Elt F) S32x1 .f32)), { L2 : List (View.Piece (Elt F) S32x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__minmax_kernel i arg1 harg1 arg2 harg2 arg3 harg3) K } := by
  refine ⟨?_, ?_, fun E K => ?run⟩
  case run =>
    simp only [cc0__minmax_kernel_eq_skeleton]; unfold cc0__minmax_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

/-- The branch not taken: both outputs are read first, so they start at the running values `xo1`, `xo2`. -/
def R0runB (hc0 : ¬R0cond i) (x0 : Vec F S32x32x1024 .f32) (xo1 : Vec F S32x1 .f32) (xo2 : Vec F S32x1 .f32) :
    Σ' (L1 : List (View.Piece (Elt F) S32x1 .f32)), { L2 : List (View.Piece (Elt F) S32x1 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__minmax_kernel i arg1 harg1 arg2 harg2 arg3 harg3) K } := by
  refine ⟨?_, ?_, fun E K => ?run⟩
  case run =>
    simp only [cc0__minmax_kernel_eq_skeleton]; unfold cc0__minmax_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Hand

end
-- ==== Proof.BitsR0.lean ====
import proofs.«104984_j16939351016189_1_alg».proof.Proof.BitsR0A

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (i : grid0.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole)

section
variable (hc0 : R0cond i) (x0 : Vec F S32x32x1024 .f32)

theorem R0coverA1 (y : S32x1.Idx) : ∃ pc ∈ (R0runA c i arg1 harg1 arg2 harg2 arg3 harg3 hc0 x0).1, y ∈ pc.1.set :=
  View.cover_of_tiledL _ S32x1.size (by sl_kernel_rfl) y

def R0outA1 : Vec F S32x1 .f32 :=
  R0VO1.read (Elt F) (R0VO1.writes (Elt F) R0VO1.junk (R0runA c i arg1 harg1 arg2 harg2 arg3 harg3 hc0 x0).1)

theorem R0coverA2 (y : S32x1.Idx) : ∃ pc ∈ (R0runA c i arg1 harg1 arg2 harg2 arg3 harg3 hc0 x0).2.1, y ∈ pc.1.set :=
  View.cover_of_tiledL _ S32x1.size (by sl_kernel_rfl) y

def R0outA2 : Vec F S32x1 .f32 :=
  R0VO2.read (Elt F) (R0VO2.writes (Elt F) R0VO2.junk (R0runA c i arg1 harg1 arg2 harg2 arg3 harg3 hc0 x0).2.1)

end

section
variable (hc0 : ¬R0cond i) (x0 : Vec F S32x32x1024 .f32) (xo1 xo2 : Vec F S32x1 .f32)

theorem R0coverB1 (y : S32x1.Idx) : ∃ pc ∈ (R0runB c i arg1 harg1 arg2 harg2 arg3 harg3 hc0 x0 xo1 xo2).1, y ∈ pc.1.set :=
  View.cover_of_tiledL _ S32x1.size (by sl_kernel_rfl) y

def R0outB1 : Vec F S32x1 .f32 :=
  R0VO1.read (Elt F) (R0VO1.writes (Elt F) R0VO1.junk (R0runB c i arg1 harg1 arg2 harg2 arg3 harg3 hc0 x0 xo1 xo2).1)

theorem R0coverB2 (y : S32x1.Idx) : ∃ pc ∈ (R0runB c i arg1 harg1 arg2 harg2 arg3 harg3 hc0 x0 xo1 xo2).2.1, y ∈ pc.1.set :=
  View.cover_of_tiledL _ S32x1.size (by sl_kernel_rfl) y

def R0outB2 : Vec F S32x1 .f32 :=
  R0VO2.read (Elt F) (R0VO2.writes (Elt F) R0VO2.junk (R0runB c i arg1 harg1 arg2 harg2 arg3 harg3 hc0 x0 xo1 xo2).2.1)

end
end

/-- One point's effect on the running (minimum, maximum) `p`: a first point starts afresh from the point's block, a later point updates `p` with it. -/
def R0step (c : Dev nD) (t : Fin cfg0.N) (p : Vec F S32x1 .f32 × Vec F S32x1 .f32) : Vec F S32x1 .f32 × Vec F S32x1 .f32 :=
  if h0 : t.val % 32 = 0 then
    (R0outA1 c _ _ (R0hs0 t) _ (R0hs1 t) _ (R0hs2 t) ((R0hcond t).mpr h0) (iblk0 V c 0 t),
      R0outA2 c _ _ (R0hs0 t) _ (R0hs1 t) _ (R0hs2 t) ((R0hcond t).mpr h0) (iblk0 V c 0 t))
  else
    (R0outB1 c _ _ (R0hs0 t) _ (R0hs1 t) _ (R0hs2 t) (mt (R0hcond t).mp h0) (iblk0 V c 0 t) p.1 p.2,
      R0outB2 c _ _ (R0hs0 t) _ (R0hs1 t) _ (R0hs2 t) (mt (R0hcond t).mp h0) (iblk0 V c 0 t) p.1 p.2)

/-- The running pair after position `n`: the points' effects in turn (position 0 is a first point, so what it starts from does not matter). -/
def R0outsAt (c : Dev nD) : (n : ℕ) → n < cfg0.N → Vec F S32x1 .f32 × Vec F S32x1 .f32
  | 0, hn => R0step V c ⟨0, hn⟩ (R0VO1.read (Elt F) R0VO1.junk, R0VO2.read (Elt F) R0VO2.junk)
  | n + 1, hn => R0step V c ⟨n + 1, hn⟩ (R0outsAt c n (Nat.lt_of_succ_lt hn))

theorem R0outsAt_A (c : Dev nD) (t : Fin cfg0.N) (h0 : t.val % 32 = 0) :
    R0outsAt V c t.val t.isLt = (R0outA1 c (grid0.coords t) (R0ms0 t) (R0hs0 t) (R0ms1 t) (R0hs1 t) (R0ms2 t) (R0hs2 t) ((R0hcond t).mpr h0) (iblk0 V c 0 t),
      R0outA2 c (grid0.coords t) (R0ms0 t) (R0hs0 t) (R0ms1 t) (R0hs1 t) (R0ms2 t) (R0hs2 t) ((R0hcond t).mpr h0) (iblk0 V c 0 t)) := by
  obtain ⟨_ | n, hn⟩ := t
  · rfl
  · exact (dif_pos h0).trans rfl

theorem R0outsAt_B (c : Dev nD) (t : Fin cfg0.N) (h0 : ¬t.val % 32 = 0) :
    R0outsAt V c t.val t.isLt = (R0outB1 c (grid0.coords t) (R0ms0 t) (R0hs0 t) (R0ms1 t) (R0hs1 t) (R0ms2 t) (R0hs2 t) (fun h => h0 ((R0hcond t).mp h)) (iblk0 V c 0 t) (R0outsAt V c (t.val - 1) (Nat.lt_of_le_of_lt (Nat.sub_le _ _) t.isLt)).1 (R0outsAt V c (t.val - 1) (Nat.lt_of_le_of_lt (Nat.sub_le _ _) t.isLt)).2,
      R0outB2 c (grid0.coords t) (R0ms0 t) (R0hs0 t) (R0ms1 t) (R0hs1 t) (R0ms2 t) (R0hs2 t) (fun h => h0 ((R0hcond t).mp h)) (iblk0 V c 0 t) (R0outsAt V c (t.val - 1) (Nat.lt_of_le_of_lt (Nat.sub_le _ _) t.isLt)).1 (R0outsAt V c (t.val - 1) (Nat.lt_of_le_of_lt (Nat.sub_le _ _) t.isLt)).2) := by
  obtain ⟨_ | n, hn⟩ := t
  · exact absurd (Nat.zero_mod _) h0
  · exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (R0outsAt V c t.val t.isLt).1
    | ⟨2, _⟩ => (R0outsAt V c t.val t.isLt).2
  Φ _ := Pipeline.ΦA spec0 c
  q _ := fullShare
  owed _ := 0

theorem A_eq0 (c : Dev nD) (w : Fin cfg0.W) : (dat0 V c).A w = V c (Pipeline.arrRef spec0 w) := rfl

theorem R0after1 (c : Dev nD) (t : Fin cfg0.N) : (dat0 V c).after 1 t = (R0outsAt V c t.val t.isLt).1 := rfl
theorem R0after2 (c : Dev nD) (t : Fin cfg0.N) : (dat0 V c).after 2 t = (R0outsAt V c t.val t.isLt).2 := rfl

theorem R0before0 (c : Dev nD) (t : Fin cfg0.N) (d) : (dat0 V c).before 0 t d = iblk0 V c 0 t :=
  (Dat.before_in_eq_fetched _ 0 rfl (fun _ => rfl) (fun _ _ _ => rfl) (fun _ => rfl) t d).trans rfl

theorem R0before_B (c : Dev nD) (t : Fin cfg0.N) (h0 : ¬t.val % 32 = 0) (w : Fin cfg0.W) (hw : (cfg0.win w).isOut = true)
    (hf : ∀ s : Fin cfg0.N, (cfg0.win w).flush s = true ↔ s.val % 32 = 31) (hl : ∀ i, cfg0.idle w i = false)
    (hc : ∀ (i : cfg0.grid.Coords) a, (cfg0.win w).clip i a = none) (d) :
    (dat0 V c).before w t d = (dat0 V c).after w ⟨t.val - 1, Nat.lt_of_le_of_lt (Nat.sub_le _ _) t.isLt⟩ := by
  have hN : t.val < 32 := lt_of_lt_of_eq t.isLt (show cfg0.N = 32 from N_0)
  exact Dat.before_out_kept _ w hw t (by omega) (Bool.eq_false_iff.mpr fun h => by have := (hf _).mp h; dsimp only at this; omega) hl hc d

theorem R0sound_body (c : Dev nD) (t : Fin cfg0.N) (P Q : sProp 𝕄) :
    iprop(P ∗ Q
      ∗ (∃ d, owns (c : Thread nD τ) (R0ms0 t) fullShare ((dat0 V c).before 0 t d))
      ∗ (∃ d, owns (c : Thread nD τ) (R0ms1 t) fullShare ((dat0 V c).before 1 t d))
      ∗ (∃ d, owns (c : Thread nD τ) (R0ms2 t) fullShare ((dat0 V c).before 2 t d)))
    ⊢ wp frame (wpE (defs₀ (F := F)) Variants.none c none) Set.univ (bodyAt0 t) fun _ =>
      iprop(P ∗ Q
        ∗ owns (c : Thread nD τ) (R0ms0 t) fullShare (iblk0 V c 0 t)
        ∗ owns (c : Thread nD τ) (R0ms1 t) fullShare (R0outsAt V c t.val t.isLt).1
        ∗ owns (c : Thread nD τ) (R0ms2 t) fullShare (R0outsAt V c t.val t.isLt).2) := by
  unfold bodyAt0
  simp only [R0before0]
  by_cases h0 : t.val % 32 = 0
  · rw [R0outsAt_A V c t h0]
    dsimp only
    unfold R0outA1 R0outA2
    iintro ⟨HP, HQ, ⟨%d0, H0⟩, ⟨%d1, H1⟩, ⟨%d2, H2⟩⟩
    iapply ((R0runA c (grid0.coords t) _ _ _ _ _ _ ((R0hcond t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    iframe HP HQ H0
    isplitl [H1]
    · unfold owns; iexists _; isplitr
      swap; · iexact H1
      ipureintro; exact View.read_writes_of_cover _ _ _ _ _ (R0coverA1 c _ _ _ _ _ _ _ _ _)
    unfold owns; iexists _; isplitr
    swap; · iexact H2
    ipureintro; exact View.read_writes_of_cover _ _ _ _ _ (R0coverA2 c _ _ _ _ _ _ _ _ _)
  · simp only [R0before_B V c t h0 1 rfl flush0_1 (fun _ => rfl) (fun _ _ => rfl), R0before_B V c t h0 2 rfl flush0_2 (fun _ => rfl) (fun _ _ => rfl), R0after1, R0after2]
    rw [R0outsAt_B V c t h0]
    dsimp only
    unfold R0outB1 R0outB2
    iintro ⟨HP, HQ, ⟨%d0, H0⟩, ⟨%d1, H1⟩, ⟨%d2, H2⟩⟩
    iapply ((R0runB c (grid0.coords t) _ _ _ _ _ _ (mt (R0hcond t).mp h0) (iblk0 V c 0 t) _ _).2.2 Set.univ _)
    iframe H0 H1 H2
    iintro ⟨H0, ⟨%e1, H1⟩, ⟨%e2, H2⟩⟩
    iframe HP HQ H0
    isplitl [H1]
    · unfold owns; iexists _; isplitr
      swap; · iexact H1
      ipureintro; exact View.read_writes_of_cover _ _ _ _ _ (R0coverB1 c _ _ _ _ _ _ _ _ _ _ _)
    unfold owns; iexists _; isplitr
    swap; · iexact H2
    ipureintro; exact View.read_writes_of_cover _ _ _ _ _ (R0coverB2 c _ _ _ _ _ _ _ _ _ _ _)

theorem body_obligation0 (c : Dev nD) : BodyObligation (dat0 (F := F) V c) (defs₀ (F := F)) Variants.none () Set.univ := fun t => by
  rw [bigSep_W0, bigSep_W0]
  exact R0sound_body V c t _ _

end Cert.Kernel.Hand

end
-- ==== Proof.BitsR1S.lean ====
import proofs.«104984_j16939351016189_1_alg».proof.Proof.Gen.Kernel.Launch
import proofs.«104984_j16939351016189_1_alg».proof.Proof.Gen.Kernel.Skeleton
import proofs.«104984_j16939351016189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic

/-- The condition of the body's one conditional; over the grid it holds at the first point only. -/
abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 32 = 0 :=
  (by decide +kernel : ∀ t : Fin grid1.N, cond1_0 (grid1.coords t) ↔ t.val % 32 = 0)

abbrev VO1_3 : View sig .tc .vmem S32x32 .f32 := (Memref.whole cc1_stg3_0 : Memref sig .tc .vmem S32x32 .f32).view

abbrev ms1_0 (t : Fin cfg1.N) : Memref sig .tc .vmem S32x32x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x32 .f32 := win1_3.stage (cfg1.slots t 3)
abbrev hs1_3 (t : Fin cfg1.N) : (ms1_3 t).IsWhole := hstage1_3 ((cfg1.slots t 3).cast nbuf1_3)

end Cert.Kernel.Hand

end
-- ==== Proof.BitsR1A.lean ====
import proofs.«104984_j16939351016189_1_alg».proof.Proof.BitsR1S

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem

variable {F : FTy → Type} [FloatOps F]

local notation "𝕄" => MT nD τ sig Unit (Elt F) ℕ (UR sig nD τ) ℕ

/-- The branch taken: the counts are zeroed before they are read, so they start at anything; the witness is the pieces written. -/
def kernelRun1_A (c : Dev nD) (i : grid1.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S32x32 .f32) (harg4 : arg4.IsWhole) (hc0 : cond1_0 i)
    (x0 : Vec F S32x32x1024 .f32) (x1 : Vec F S32x1 .f32) (x2 : Vec F S32x1 .f32) :
    { L3 : List (View.Piece (Elt F) S32x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__hist_kernel i arg1 harg1 arg2 harg2 arg3 harg3 arg4 harg4) K } := by
  refine ⟨?_, fun E K => ?run⟩
  case run =>
    simp only [cc1__hist_kernel_eq_skeleton]; unfold cc1__hist_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.BitsR1B.lean ====
import proofs.«104984_j16939351016189_1_alg».proof.Proof.BitsR1A

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem

variable {F : FTy → Type} [FloatOps F]

local notation "𝕄" => MT nD τ sig Unit (Elt F) ℕ (UR sig nD τ) ℕ

/-- The branch not taken: the counts are read first, so they start at the running value `xo3`. -/
def kernelRun1_B (c : Dev nD) (i : grid1.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S32x32 .f32) (harg4 : arg4.IsWhole) (hc0 : ¬cond1_0 i)
    (x0 : Vec F S32x32x1024 .f32) (x1 : Vec F S32x1 .f32) (x2 : Vec F S32x1 .f32) (xo3 : Vec F S32x32 .f32) :
    { L3 : List (View.Piece (Elt F) S32x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__hist_kernel i arg1 harg1 arg2 harg2 arg3 harg3 arg4 harg4) K } := by
  refine ⟨?_, fun E K => ?run⟩
  case run =>
    simp only [cc1__hist_kernel_eq_skeleton]; unfold cc1__hist_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.BitsR1.lean ====
import proofs.«104984_j16939351016189_1_alg».proof.Proof.BitsR1B

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (i : grid1.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S32x32 .f32) (harg4 : arg4.IsWhole)

section
variable (hc0 : cond1_0 i) (x0 : Vec F S32x32x1024 .f32) (x1 : Vec F S32x1 .f32) (x2 : Vec F S32x1 .f32)

theorem cover1_A_3 (y : S32x32.Idx) : ∃ pc ∈ (kernelRun1_A c i arg1 harg1 arg2 harg2 arg3 harg3 arg4 harg4 hc0 x0 x1 x2).1, y ∈ pc.1.set :=
  View.cover_of_tiledL _ S32x32.size (by sl_kernel_rfl) y

def out1_A_3 : Vec F S32x32 .f32 :=
  VO1_3.read (Elt F) (VO1_3.writes (Elt F) VO1_3.junk (kernelRun1_A c i arg1 harg1 arg2 harg2 arg3 harg3 arg4 harg4 hc0 x0 x1 x2).1)

end

section
variable (hc0 : ¬cond1_0 i) (x0 : Vec F S32x32x1024 .f32) (x1 : Vec F S32x1 .f32) (x2 : Vec F S32x1 .f32) (xo3 : Vec F S32x32 .f32)

theorem cover1_B_3 (y : S32x32.Idx) : ∃ pc ∈ (kernelRun1_B c i arg1 harg1 arg2 harg2 arg3 harg3 arg4 harg4 hc0 x0 x1 x2 xo3).1, y ∈ pc.1.set :=
  View.cover_of_tiledL (s := S32x32) _ S32x1.size (by sl_kernel_rfl) y

def out1_B_3 : Vec F S32x32 .f32 :=
  VO1_3.read (Elt F) (VO1_3.writes (Elt F) VO1_3.junk (kernelRun1_B c i arg1 harg1 arg2 harg2 arg3 harg3 arg4 harg4 hc0 x0 x1 x2 xo3).1)

end
end

/-- One point's effect on the running counts `p`: a first point starts afresh, a later point adds to `p`. -/
def step1 (c : Dev nD) (t : Fin cfg1.N) (p : Vec F S32x32 .f32) : Vec F S32x32 .f32 :=
  if h0 : t.val % 32 = 0 then
    out1_A_3 c _ _ (hs1_0 t) _ (hs1_1 t) _ (hs1_2 t) _ (hs1_3 t) ((hcond1_0 t).mpr h0) (iblk1 V c 0 t) (iblk1 V c 1 t) (iblk1 V c 2 t)
  else
    out1_B_3 c _ _ (hs1_0 t) _ (hs1_1 t) _ (hs1_2 t) _ (hs1_3 t) (mt (hcond1_0 t).mp h0) (iblk1 V c 0 t) (iblk1 V c 1 t) (iblk1 V c 2 t) p

/-- The counts after position `n`: the points' effects in turn (position 0 is a first point, so what it starts from does not matter). -/
def outsAt1 (c : Dev nD) : (n : ℕ) → n < cfg1.N → Vec F S32x32 .f32
  | 0, hn => step1 V c ⟨0, hn⟩ (VO1_3.read (Elt F) VO1_3.junk)
  | n + 1, hn => step1 V c ⟨n + 1, hn⟩ (outsAt1 c n (Nat.lt_of_succ_lt hn))

theorem outsAt1_A (c : Dev nD) (t : Fin cfg1.N) (h0 : t.val % 32 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨_ | n, hn⟩ := t
  · rfl
  · exact (dif_pos h0).trans rfl

theorem outsAt1_B (c : Dev nD) (t : Fin cfg1.N) (h0 : ¬t.val % 32 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨_ | n, hn⟩ := t
  · exact absurd (Nat.zero_mod _) h0
  · exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt) := rfl

theorem before1_0 (c : Dev nD) (t : Fin cfg1.N) (d) : (dat1 V c).before 0 t d = iblk1 V c 0 t :=
  (Dat.before_in_eq_fetched _ 0 rfl (fun _ => rfl) (fun _ _ _ => rfl) (fun _ => rfl) t d).trans rfl
theorem before1_1 (c : Dev nD) (t : Fin cfg1.N) (d) : (dat1 V c).before 1 t d = iblk1 V c 1 t :=
  (Dat.before_in_eq_fetched _ 1 rfl (fun _ => rfl) (fun _ _ _ => rfl) (fun _ => rfl) t d).trans rfl
theorem before1_2 (c : Dev nD) (t : Fin cfg1.N) (d) : (dat1 V c).before 2 t d = iblk1 V c 2 t :=
  (Dat.before_in_eq_fetched _ 2 rfl (fun _ => rfl) (fun _ _ _ => rfl) (fun _ => rfl) t d).trans rfl

theorem before1_3_B (c : Dev nD) (t : Fin cfg1.N) (h0 : ¬t.val % 32 = 0) (d) :
    (dat1 V c).before 3 t d = (outsAt1 V c (t.val - 1) (Nat.lt_of_le_of_lt (Nat.sub_le _ _) t.isLt)) := by
  have hN : t.val < 32 := lt_of_lt_of_eq t.isLt (show cfg1.N = 32 from N_1)
  exact Dat.before_out_kept _ 3 rfl t (by omega) (Bool.eq_false_iff.mpr fun h => by have := (flush1_3 _).mp h; dsimp only at this; omega)
    (fun _ => rfl) (fun _ _ => rfl) d

theorem sound_body1 (c : Dev nD) (t : Fin cfg1.N) (P Q : sProp 𝕄) :
    iprop(P ∗ Q
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) fun _ =>
      iprop(P ∗ Q
        ∗ owns (c : Thread nD τ) (ms1_0 t) fullShare (iblk1 V c 0 t)
        ∗ owns (c : Thread nD τ) (ms1_1 t) fullShare (iblk1 V c 1 t)
        ∗ owns (c : Thread nD τ) (ms1_2 t) fullShare (iblk1 V c 2 t)
        ∗ owns (c : Thread nD τ) (ms1_3 t) fullShare (outsAt1 V c t.val t.isLt)) := by
  unfold bodyAt1
  simp only [before1_0, before1_1, before1_2]
  by_cases h0 : t.val % 32 = 0
  · rw [outsAt1_A V c t h0]
    unfold out1_A_3
    iintro ⟨HP, HQ, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    iframe H0 H1 H2
    isplitl [H3]; · iexists _; iexact H3
    iintro ⟨H0, H1, H2, ⟨%e3, H3⟩⟩
    iframe HP HQ H0 H1 H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HP, HQ, ⟨%d0, H0⟩, ⟨%d1, H1⟩, ⟨%d2, H2⟩, ⟨%d3, H3⟩⟩
    iapply ((kernelRun1_B c (grid1.coords t) _ _ _ _ _ _ _ _ (mt (hcond1_0 t).mp h0) (iblk1 V c 0 t) (iblk1 V c 1 t) (iblk1 V c 2 t) _).2 Set.univ _)
    iframe H0 H1 H2 H3
    iintro ⟨H0, H1, H2, ⟨%e3, H3⟩⟩
    iframe HP HQ H0 H1 H2
    unfold owns; iexists _; isplitr
    swap; · iexact H3
    ipureintro; exact View.read_writes_of_cover _ _ _ _ _ (cover1_B_3 c _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t _ _

end Cert.Kernel.Hand

end
-- ==== Proof.BitsR2.lean ====
import proofs.«104984_j16939351016189_1_alg».proof.Proof.Gen.Kernel.Launch
import proofs.«104984_j16939351016189_1_alg».proof.Proof.Gen.Kernel.Skeleton
import proofs.«104984_j16939351016189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev R2r0 : Rect S32x32x1024 := Rect.unit (s := S32x32x1024) ![0, 0, 0] S32x32x1024.size inb_S32x32x1024_S32x32x1024_0_0_0
abbrev R2r1 : Rect S32x4 := Rect.unit (s := S32x4) ![0, 0] S32x4.size inb_S32x4_S32x4_0_0

/-- What the body leaves in the output buffer: its one store, over the whole block. -/
def R2out2 (x0 : Vec F S32x32x1024 .f32) (x1 : Vec F S32x4 .f32) : Vec F S32x32x1024 .f32 :=
  View.canon [⟨R2r0, k2_pay1 (View.ld x0 R2r0) (View.ld x1 R2r1)⟩]

theorem R2sound_kernel (c : Dev nD) (E : Set ℕ) (i : grid2.Coords)
    (arg1 : Memref sig .tc .vmem S32x32x1024 .f32) (harg1 : arg1.IsWhole)
    (arg2 : Memref sig .tc .vmem S32x4 .f32) (harg2 : arg2.IsWhole)
    (arg3 : Memref sig .tc .vmem S32x32x1024 .f32) (harg3 : arg3.IsWhole)
    (x0 : Vec F S32x32x1024 .f32) (x1 : Vec F S32x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (R2out2 x0 x1)) -∗ K ⟨⟩))
      ⊢ wp frame (wpE (defs₀ (F := F)) Variants.none c none) E (cc2__refine_kernel i arg1 harg1 arg2 harg2 arg3 harg3) K := by
  simp only [cc2__refine_kernel_eq_skeleton]; unfold cc2__refine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S32x32x1024.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => R2out2 (iblk2 V c 0 t) (iblk2 V c 1 t)
  Φ _ := Pipeline.ΦA spec2 c
  q _ := fullShare
  owed _ := 0

theorem R2after2 (c : Dev nD) (t : Fin cfg2.N) : (dat2 V c).after 2 t = R2out2 (iblk2 V c 0 t) (iblk2 V c 1 t) := by dsimp only [dat2]

theorem R2before0 (c : Dev nD) (t : Fin cfg2.N) (d) : (dat2 V c).before 0 t d = iblk2 V c 0 t :=
  (Dat.before_in_eq_fetched _ 0 rfl (fun _ => rfl) (fun _ _ _ => rfl) (fun _ => rfl) t d).trans rfl
theorem R2before1 (c : Dev nD) (t : Fin cfg2.N) (d) : (dat2 V c).before 1 t d = iblk2 V c 1 t :=
  (Dat.before_in_eq_fetched _ 1 rfl (fun _ => rfl) (fun _ _ _ => rfl) (fun _ => rfl) t d).trans rfl

theorem R2sound_body (c : Dev nD) (t : Fin cfg2.N) (P Q : sProp 𝕄) :
    iprop(P ∗ Q
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) fun _ =>
      iprop(P ∗ Q
        ∗ owns (c : Thread nD τ) (st2_0 t) fullShare (iblk2 V c 0 t)
        ∗ owns (c : Thread nD τ) (st2_1 t) fullShare (iblk2 V c 1 t)
        ∗ owns (c : Thread nD τ) (st2_2 t) fullShare ((dat2 V c).after 2 t)) := by
  unfold bodyAt2
  simp only [R2before0, R2before1, R2after2]
  iintro ⟨HP, HQ, ⟨%d0, H0⟩, ⟨%d1, H1⟩, ⟨%d2, H2⟩⟩
  iapply (R2sound_kernel c Set.univ _ _ _ _ _ _ _ (iblk2 V c 0 t) (iblk2 V c 1 t) _)
  iframe H0 H1
  isplitl [H2]; · iexists _; iexact H2
  iintro ⟨H0, H1, H2⟩
  iframe HP HQ H0 H1 H2

theorem body_obligation2 (c : Dev nD) : BodyObligation (dat2 (F := F) V c) (defs₀ (F := F)) Variants.none () Set.univ := fun t => by
  rw [bigSep_W2, bigSep_W2]
  exact R2sound_body V c t _ _

end Cert.Kernel.Hand

end
-- ==== Proof.BitsRun.lean ====
import proofs.«104984_j16939351016189_1_alg».proof.Proof.BitsR0
import proofs.«104984_j16939351016189_1_alg».proof.Proof.BitsR1
import proofs.«104984_j16939351016189_1_alg».proof.Proof.BitsR2
import proofs.«104984_j16939351016189_1_alg».proof.Proof.Gen.Kernel.Regions
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The buffers' contents after a host stretch. -/
abbrev aft (ops : List (HloOp τ sig (Elt F))) (W : Dev nD → Valuation τ sig (Elt F)) : Dev nD → Valuation τ sig (Elt F) :=
  fun c => StableHlo.after ops (W c)

abbrev atTc (W : Dev nD → Valuation τ sig (Elt F)) (c : Dev nD) (b : Ref sig .tc) : Buf (Elt F) ((c : Thread nD τ).loc b) := W c b

abbrev W0 : Dev nD → Valuation τ sig (Elt F) := fun c b => m (c, b)
abbrev W1 := aft hostOps0 (W0 m)
abbrev X1 := atTc (W1 m)

/-- A region's exit contents: its arrays at their final contents, every other buffer as entered. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev X2 := atTc (W2 m)
def W3 (c : Dev nD) : Valuation τ sig (Elt F) :=
  Pipeline.withArrays spec1 c (W2 m c) fun w => (dat1 (X2 m) c).arrAt w cfg1.N
theorem W3_arr (c : Dev nD) (w : Fin cfg1.W) :
    W3 m c (Proc.devRef .tc (Pipeline.arrRef spec1 w)) = (dat1 (X2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb

abbrev W4 := aft hostOps2 (W3 m)
abbrev W5 := aft hostOps2_1 (W4 m)
abbrev W6 := aft hostOps2_2 (W5 m)
abbrev W7 := aft hostOps2_3 (W6 m)
abbrev W8 := aft hostOps2_4 (W7 m)
abbrev W9 := aft hostOps2_5 (W8 m)
abbrev W10 := aft hostOps2_6 (W9 m)
abbrev W11 := aft hostOps2_7 (W10 m)
abbrev W12 := aft hostOps2_8 (W11 m)
abbrev W13 := aft hostOps2_9 (W12 m)

abbrev X13 := atTc (W13 m)
def W14 (c : Dev nD) : Valuation τ sig (Elt F) :=
  Pipeline.withArrays spec2 c (W13 m c) fun w => (dat2 (X13 m) c).arrAt w cfg2.N
theorem W14_arr (c : Dev nD) (w : Fin cfg2.W) :
    W14 m c (Proc.devRef .tc (Pipeline.arrRef spec2 w)) = (dat2 (X13 m) c).arrAt w cfg2.N :=
  Pipeline.withArrays_arr spec2 launch2.win.arr_inj c _ _ w
theorem W14_of_ne (c : Dev nD) (b : Ref sig .tc) (hb : ∀ w, Pipeline.arrRef spec2 w ≠ b) :
    W14 m c (Proc.devRef .tc b) = W13 m c (Proc.devRef .tc b) :=
  Pipeline.withArrays_of_ne spec2 c _ _ b hb

abbrev W15 := aft hostOps3 (W14 m)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X2 m) c
  | ⟨2, _⟩ => fun c => dat2 (X13 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

/-- Region `p` takes the buffers from the contents `V` to `V'`: its arrays at what its points leave, every other buffer as it was. -/
def reg (p : Fin 3) (l : Pipeline.LaunchFacts (nD := nD) (τ := τ) cfgs p) (V V' : Dev nD → Valuation τ sig (Elt F))
    (hb : ∀ c, BodyObligation (pdats m p c) (defs₀ (F := F)) Variants.none () Set.univ)
    (hF : ∀ c w, V' c (Proc.devRef .tc (Pipeline.arrRef (cfgs p).spec w)) = (pdats m p c).arrAt w (cfgs p).N)
    (hne : ∀ c (b : Ref sig .tc), (∀ w, Pipeline.arrRef (cfgs p).spec w ≠ b) → V' c (Proc.devRef .tc b) = V c (Proc.devRef .tc b))
    (hA : ∀ c w, (pdats m p c).A w = V c (Proc.devRef .tc (Pipeline.arrRef (cfgs p).spec w)) := by intros; rfl)
    (hΦ : ∀ c i, (pdats m p c).Φ i = Pipeline.ΦA (cfgs p).spec c := by intros; rfl)
    (hq : ∀ c w, (pdats m p c).q w = fullShare := by intros; rfl)
    (ho : ∀ c t, (pdats m p c).owed t = 0 := by intros; rfl)
    (hr : ∀ c t, (pdats m p c).recorded t = Set.univ := by intros; rfl) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc V c)
  hentry c := by
    rw [Pipeline.ownSems0_none]
    have hsplit := Pipeline.arrays_of_unscopedBufs (p := p) (pcfgs (F := F)) adm (pdats m) l.win l.arr_whole c
      ((pdats m p c).share_full (hq c)) (atTc V c) (hA c)
    rw [Pipeline.unscopedBufs_held] at hsplit
    iintro ⟨⟨Hub, Hp, HO⟩, -, -⟩
    icases hsplit $$ Hub with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [ho, hr]
    icases HO with ⟨%W, HO⟩; iexists W; iframe
    ipureintro; exact fun _ _ => Or.inl trivial
  hin c := by
    rw [hΦ]; unfold Pipeline.ΦA
    iintro ⟨Hp, -, Hr⟩
    iframe
  hout c := by
    rw [Pipeline.ownSems0_none, hΦ]; unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      l.win l.arr_whole c (pdats m) ((pdats m p c).share_full (hq c))
      (atTc V c) (atTc V' c) ((pdats m p c).arrAt · (cfgs p).N) (fun w => (hF c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [ho]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg m 0 launch0 (W1 m) (W2 m) (body_obligation0 (X1 m)) (W2_arr m) (W2_of_ne m)),
    .region (reg m 1 launch1 (W2 m) (W3 m) (body_obligation1 (X2 m)) (W3_arr m) (W3_of_ne m)),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .host (hseg hostOps2_3 hostOps2_3_sub hostOps2_3_fresh (W6 m)),
    .host (hseg hostOps2_4 hostOps2_4_sub hostOps2_4_fresh (W7 m)),
    .host (hseg hostOps2_5 hostOps2_5_sub hostOps2_5_fresh (W8 m)),
    .host (hseg hostOps2_6 hostOps2_6_sub hostOps2_6_fresh (W9 m)),
    .host (hseg hostOps2_7 hostOps2_7_sub hostOps2_7_fresh (W10 m)),
    .host (hseg hostOps2_8 hostOps2_8_sub hostOps2_8_fresh (W11 m)),
    .host (hseg hostOps2_9 hostOps2_9_sub hostOps2_9_fresh (W12 m)),
    .region (reg m 2 launch2 (W13 m) (W14 m) (body_obligation2 (X13 m)) (W14_arr m) (W14_of_ne m)),
    .host (hseg hostOps3 hostOps3_sub hostOps3_fresh (W14 m)) ]

/-- @main followed item by item through the contents `W0`, …, `W15`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) adm (pdats m) () cellOf_inj emb₁ defs₀ 𝒱₀ L lv m ρ main (segs m)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp) (u₀ := _)
    (hu₀ := by
      rw [BI.bigSep_emp_const, ownU_emb₁]
      iintro Hu; imodintro
      isplitl [Hu]; · iexact Hu
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W15 m c) ∗ ∃ r, prngReg c r))
    (hch := by
      and_intros
      rotate_right
      · exact fun _ => sep_assoc.2
      all_goals exact fun _ => .rfl)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

end Cert.Kernel.Hand

end
-- ==== Proof.BitsRunArgs.lean ====
import proofs.«104984_j16939351016189_1_alg».proof.Proof.BitsRun

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (c : Dev nD) (r : Ref sig .tc)

/-- No host stretch between the second and the third region writes `r`. -/
abbrev Mid : Prop :=
  r ∉ hostOps2_W ∧ r ∉ hostOps2_1_W ∧ r ∉ hostOps2_2_W ∧ r ∉ hostOps2_3_W ∧ r ∉ hostOps2_4_W ∧ r ∉ hostOps2_5_W
    ∧ r ∉ hostOps2_6_W ∧ r ∉ hostOps2_7_W ∧ r ∉ hostOps2_8_W ∧ r ∉ hostOps2_9_W

theorem W13_of (h : Mid r := by decide) : W13 m c (Proc.devRef .tc r) = W3 m c (Proc.devRef .tc r) :=
  have ⟨h0, h1, h2, h3, h4, h5, h6, h7, h8, h9⟩ := h
  (StableHlo.after_of_writes_sub _ _ hostOps2_9_writes h9).trans <| (StableHlo.after_of_writes_sub _ _ hostOps2_8_writes h8).trans <|
  (StableHlo.after_of_writes_sub _ _ hostOps2_7_writes h7).trans <| (StableHlo.after_of_writes_sub _ _ hostOps2_6_writes h6).trans <|
  (StableHlo.after_of_writes_sub _ _ hostOps2_5_writes h5).trans <| (StableHlo.after_of_writes_sub _ _ hostOps2_4_writes h4).trans <|
  (StableHlo.after_of_writes_sub _ _ hostOps2_3_writes h3).trans <| (StableHlo.after_of_writes_sub _ _ hostOps2_2_writes h2).trans <|
  (StableHlo.after_of_writes_sub _ _ hostOps2_1_writes h1).trans <| StableHlo.after_of_writes_sub _ _ hostOps2_writes h0

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes and that is no region's array ends as launched. -/
theorem kept {s : MemSt nD τ sig (Elt F)} (hs : ∀ b ∈ Pipeline.ucRefs τ sig, s.mem ((c : Thread nD τ).1, b) = W15 m c b)
    (h : ¬ (Proc.devRef .tc r : DevRef τ sig).isScoped ∧ r ∉ hostOps0_W ∧ r ∉ hostOps3_W ∧ (∀ w, Pipeline.arrRef spec0 w ≠ r)
      ∧ (∀ w, Pipeline.arrRef spec1 w ≠ r) ∧ ∀ w, Pipeline.arrRef spec2 w ≠ r := by decide) (h' : Mid r := by decide) :
    s.mem ((c : Thread nD τ).loc r) = m ((c : Thread nD τ).loc r) :=
  (hs _ (mem_uc r h.1)).trans <| (StableHlo.after_of_writes_sub _ _ hostOps3_writes h.2.2.1).trans <|
  (W14_of_ne m c r h.2.2.2.2.2).trans <| (W13_of m c r h').trans <| (W3_of_ne m c r h.2.2.2.2.1).trans <|
  (W2_of_ne m c r h.2.2.2.1).trans <| StableHlo.after_of_writes_sub _ _ hostOps0_writes h.2.1

end Cert.Kernel.Hand

end
-- ==== Proof.R0A.lean ====
import proofs.«104984_j16939351016189_1_alg».proof.Proof.Gen.KernelIdeal.Launch
import proofs.«104984_j16939351016189_1_alg».proof.Proof.Gen.KernelIdeal.Skeleton
import proofs.«104984_j16939351016189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem

variable {F : FTy → Type} [FloatOps F]

local notation "𝕄" => MT nD τ sig Unit (Elt F) ℕ (UR sig nD τ) ℕ

/-- The condition of the body's one conditional; over the grid it holds at the first point only. -/
abbrev R0cond (i : grid0.Coords) : Prop := (Scalar.cmpi .ne (Scalar.extui (Scalar.cmpi .eq (BitVec.ofNat 32 (i 0).val) 0#32)) 0#32) = 1#1

theorem R0hcond : ∀ t : Fin cfg0.N, R0cond (grid0.coords t) ↔ t.val % 32 = 0 :=
  (by decide +kernel : ∀ t : Fin grid0.N, R0cond (grid0.coords t) ↔ t.val % 32 = 0)

abbrev R0VO1 : View sig .tc .vmem S32x1 .f32 := (Memref.whole cc0_stg1_0 : Memref sig .tc .vmem S32x1 .f32).view
abbrev R0VO2 : View sig .tc .vmem S32x1 .f32 := (Memref.whole cc0_stg2_0 : Memref sig .tc .vmem S32x1 .f32).view

abbrev R0ms0 (t : Fin cfg0.N) : Memref sig .tc .vmem S32x32x1024 .f32 := win0_0.stage (cfg0.slots t 0)
abbrev R0hs0 (t : Fin cfg0.N) : (R0ms0 t).IsWhole := hstage0_0 ((cfg0.slots t 0).cast nbuf0_0)
abbrev R0ms1 (t : Fin cfg0.N) : Memref sig .tc .vmem S32x1 .f32 := win0_1.stage (cfg0.slots t 1)
abbrev R0hs1 (t : Fin cfg0.N) : (R0ms1 t).IsWhole := hstage0_1 ((cfg0.slots t 1).cast nbuf0_1)
abbrev R0ms2 (t : Fin cfg0.N) : Memref sig .tc .vmem S32x1 .f32 := win0_2.stage (cfg0.slots t 2)
abbrev R0hs2 (t : Fin cfg0.N) : (R0ms2 t).IsWhole := hstage0_2 ((cfg0.slots t 2).cast nbuf0_2)

variable (c : Dev nD) (i : grid0.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole)

/-- The branch taken: both outputs are overwritten before they are read, so they start at anything; the witnesses are the pieces written. -/
def R0runA (hc0 : R0cond i) (x0 : Vec F S32x32x1024 .f32) :
    Σ' (L1 : List (View.Piece (Elt F) S32x1 .f32)), { L2 : List (View.Piece (Elt F) S32x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__minmax_kernel i arg1 harg1 arg2 harg2 arg3 harg3) K } := by
  refine ⟨?_, ?_, fun E K => ?run⟩
  case run =>
    simp only [cc0__minmax_kernel_eq_skeleton]; unfold cc0__minmax_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

/-- The branch not taken: both outputs are read first, so they start at the running values `xo1`, `xo2`. -/
def R0runB (hc0 : ¬R0cond i) (x0 : Vec F S32x32x1024 .f32) (xo1 : Vec F S32x1 .f32) (xo2 : Vec F S32x1 .f32) :
    Σ' (L1 : List (View.Piece (Elt F) S32x1 .f32)), { L2 : List (View.Piece (Elt F) S32x1 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0__minmax_kernel i arg1 harg1 arg2 harg2 arg3 harg3) K } := by
  refine ⟨?_, ?_, fun E K => ?run⟩
  case run =>
    simp only [cc0__minmax_kernel_eq_skeleton]; unfold cc0__minmax_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Hand

end
-- ==== Proof.R0.lean ====
import proofs.«104984_j16939351016189_1_alg».proof.Proof.R0A

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (i : grid0.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole)

section
variable (hc0 : R0cond i) (x0 : Vec F S32x32x1024 .f32)

theorem R0coverA1 (y : S32x1.Idx) : ∃ pc ∈ (R0runA c i arg1 harg1 arg2 harg2 arg3 harg3 hc0 x0).1, y ∈ pc.1.set :=
  View.cover_of_tiledL _ S32x1.size (by sl_kernel_rfl) y

def R0outA1 : Vec F S32x1 .f32 :=
  R0VO1.read (Elt F) (R0VO1.writes (Elt F) R0VO1.junk (R0runA c i arg1 harg1 arg2 harg2 arg3 harg3 hc0 x0).1)

theorem R0coverA2 (y : S32x1.Idx) : ∃ pc ∈ (R0runA c i arg1 harg1 arg2 harg2 arg3 harg3 hc0 x0).2.1, y ∈ pc.1.set :=
  View.cover_of_tiledL _ S32x1.size (by sl_kernel_rfl) y

def R0outA2 : Vec F S32x1 .f32 :=
  R0VO2.read (Elt F) (R0VO2.writes (Elt F) R0VO2.junk (R0runA c i arg1 harg1 arg2 harg2 arg3 harg3 hc0 x0).2.1)

end

section
variable (hc0 : ¬R0cond i) (x0 : Vec F S32x32x1024 .f32) (xo1 xo2 : Vec F S32x1 .f32)

theorem R0coverB1 (y : S32x1.Idx) : ∃ pc ∈ (R0runB c i arg1 harg1 arg2 harg2 arg3 harg3 hc0 x0 xo1 xo2).1, y ∈ pc.1.set :=
  View.cover_of_tiledL _ S32x1.size (by sl_kernel_rfl) y

def R0outB1 : Vec F S32x1 .f32 :=
  R0VO1.read (Elt F) (R0VO1.writes (Elt F) R0VO1.junk (R0runB c i arg1 harg1 arg2 harg2 arg3 harg3 hc0 x0 xo1 xo2).1)

theorem R0coverB2 (y : S32x1.Idx) : ∃ pc ∈ (R0runB c i arg1 harg1 arg2 harg2 arg3 harg3 hc0 x0 xo1 xo2).2.1, y ∈ pc.1.set :=
  View.cover_of_tiledL _ S32x1.size (by sl_kernel_rfl) y

def R0outB2 : Vec F S32x1 .f32 :=
  R0VO2.read (Elt F) (R0VO2.writes (Elt F) R0VO2.junk (R0runB c i arg1 harg1 arg2 harg2 arg3 harg3 hc0 x0 xo1 xo2).2.1)

end
end

/-- One point's effect on the running (minimum, maximum) `p`: a first point starts afresh from the point's block, a later point updates `p` with it. -/
def R0step (c : Dev nD) (t : Fin cfg0.N) (p : Vec F S32x1 .f32 × Vec F S32x1 .f32) : Vec F S32x1 .f32 × Vec F S32x1 .f32 :=
  if h0 : t.val % 32 = 0 then
    (R0outA1 c _ _ (R0hs0 t) _ (R0hs1 t) _ (R0hs2 t) ((R0hcond t).mpr h0) (iblk0 V c 0 t),
      R0outA2 c _ _ (R0hs0 t) _ (R0hs1 t) _ (R0hs2 t) ((R0hcond t).mpr h0) (iblk0 V c 0 t))
  else
    (R0outB1 c _ _ (R0hs0 t) _ (R0hs1 t) _ (R0hs2 t) (mt (R0hcond t).mp h0) (iblk0 V c 0 t) p.1 p.2,
      R0outB2 c _ _ (R0hs0 t) _ (R0hs1 t) _ (R0hs2 t) (mt (R0hcond t).mp h0) (iblk0 V c 0 t) p.1 p.2)

/-- The running pair after position `n`: the points' effects in turn (position 0 is a first point, so what it starts from does not matter). -/
def R0outsAt (c : Dev nD) : (n : ℕ) → n < cfg0.N → Vec F S32x1 .f32 × Vec F S32x1 .f32
  | 0, hn => R0step V c ⟨0, hn⟩ (R0VO1.read (Elt F) R0VO1.junk, R0VO2.read (Elt F) R0VO2.junk)
  | n + 1, hn => R0step V c ⟨n + 1, hn⟩ (R0outsAt c n (Nat.lt_of_succ_lt hn))

theorem R0outsAt_A (c : Dev nD) (t : Fin cfg0.N) (h0 : t.val % 32 = 0) :
    R0outsAt V c t.val t.isLt = (R0outA1 c (grid0.coords t) (R0ms0 t) (R0hs0 t) (R0ms1 t) (R0hs1 t) (R0ms2 t) (R0hs2 t) ((R0hcond t).mpr h0) (iblk0 V c 0 t),
      R0outA2 c (grid0.coords t) (R0ms0 t) (R0hs0 t) (R0ms1 t) (R0hs1 t) (R0ms2 t) (R0hs2 t) ((R0hcond t).mpr h0) (iblk0 V c 0 t)) := by
  obtain ⟨_ | n, hn⟩ := t
  · rfl
  · exact (dif_pos h0).trans rfl

theorem R0outsAt_B (c : Dev nD) (t : Fin cfg0.N) (h0 : ¬t.val % 32 = 0) :
    R0outsAt V c t.val t.isLt = (R0outB1 c (grid0.coords t) (R0ms0 t) (R0hs0 t) (R0ms1 t) (R0hs1 t) (R0ms2 t) (R0hs2 t) (fun h => h0 ((R0hcond t).mp h)) (iblk0 V c 0 t) (R0outsAt V c (t.val - 1) (Nat.lt_of_le_of_lt (Nat.sub_le _ _) t.isLt)).1 (R0outsAt V c (t.val - 1) (Nat.lt_of_le_of_lt (Nat.sub_le _ _) t.isLt)).2,
      R0outB2 c (grid0.coords t) (R0ms0 t) (R0hs0 t) (R0ms1 t) (R0hs1 t) (R0ms2 t) (R0hs2 t) (fun h => h0 ((R0hcond t).mp h)) (iblk0 V c 0 t) (R0outsAt V c (t.val - 1) (Nat.lt_of_le_of_lt (Nat.sub_le _ _) t.isLt)).1 (R0outsAt V c (t.val - 1) (Nat.lt_of_le_of_lt (Nat.sub_le _ _) t.isLt)).2) := by
  obtain ⟨_ | n, hn⟩ := t
  · exact absurd (Nat.zero_mod _) h0
  · exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (R0outsAt V c t.val t.isLt).1
    | ⟨2, _⟩ => (R0outsAt V c t.val t.isLt).2
  Φ _ := Pipeline.ΦA spec0 c
  q _ := fullShare
  owed _ := 0

theorem A_eq0 (c : Dev nD) (w : Fin cfg0.W) : (dat0 V c).A w = V c (Pipeline.arrRef spec0 w) := rfl

theorem R0after1 (c : Dev nD) (t : Fin cfg0.N) : (dat0 V c).after 1 t = (R0outsAt V c t.val t.isLt).1 := rfl
theorem R0after2 (c : Dev nD) (t : Fin cfg0.N) : (dat0 V c).after 2 t = (R0outsAt V c t.val t.isLt).2 := rfl

theorem R0before0 (c : Dev nD) (t : Fin cfg0.N) (d) : (dat0 V c).before 0 t d = iblk0 V c 0 t :=
  (Dat.before_in_eq_fetched _ 0 rfl (fun _ => rfl) (fun _ _ _ => rfl) (fun _ => rfl) t d).trans rfl

theorem R0before_B (c : Dev nD) (t : Fin cfg0.N) (h0 : ¬t.val % 32 = 0) (w : Fin cfg0.W) (hw : (cfg0.win w).isOut = true)
    (hf : ∀ s : Fin cfg0.N, (cfg0.win w).flush s = true ↔ s.val % 32 = 31) (hl : ∀ i, cfg0.idle w i = false)
    (hc : ∀ (i : cfg0.grid.Coords) a, (cfg0.win w).clip i a = none) (d) :
    (dat0 V c).before w t d = (dat0 V c).after w ⟨t.val - 1, Nat.lt_of_le_of_lt (Nat.sub_le _ _) t.isLt⟩ := by
  have hN : t.val < 32 := lt_of_lt_of_eq t.isLt (show cfg0.N = 32 from N_0)
  exact Dat.before_out_kept _ w hw t (by omega) (Bool.eq_false_iff.mpr fun h => by have := (hf _).mp h; dsimp only at this; omega) hl hc d

theorem R0sound_body (c : Dev nD) (t : Fin cfg0.N) (P Q : sProp 𝕄) :
    iprop(P ∗ Q
      ∗ (∃ d, owns (c : Thread nD τ) (R0ms0 t) fullShare ((dat0 V c).before 0 t d))
      ∗ (∃ d, owns (c : Thread nD τ) (R0ms1 t) fullShare ((dat0 V c).before 1 t d))
      ∗ (∃ d, owns (c : Thread nD τ) (R0ms2 t) fullShare ((dat0 V c).before 2 t d)))
    ⊢ wp frame (wpE (defs₀ (F := F)) Variants.none c none) Set.univ (bodyAt0 t) fun _ =>
      iprop(P ∗ Q
        ∗ owns (c : Thread nD τ) (R0ms0 t) fullShare (iblk0 V c 0 t)
        ∗ owns (c : Thread nD τ) (R0ms1 t) fullShare (R0outsAt V c t.val t.isLt).1
        ∗ owns (c : Thread nD τ) (R0ms2 t) fullShare (R0outsAt V c t.val t.isLt).2) := by
  unfold bodyAt0
  simp only [R0before0]
  by_cases h0 : t.val % 32 = 0
  · rw [R0outsAt_A V c t h0]
    dsimp only
    unfold R0outA1 R0outA2
    iintro ⟨HP, HQ, ⟨%d0, H0⟩, ⟨%d1, H1⟩, ⟨%d2, H2⟩⟩
    iapply ((R0runA c (grid0.coords t) _ _ _ _ _ _ ((R0hcond t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    iframe HP HQ H0
    isplitl [H1]
    · unfold owns; iexists _; isplitr
      swap; · iexact H1
      ipureintro; exact View.read_writes_of_cover _ _ _ _ _ (R0coverA1 c _ _ _ _ _ _ _ _ _)
    unfold owns; iexists _; isplitr
    swap; · iexact H2
    ipureintro; exact View.read_writes_of_cover _ _ _ _ _ (R0coverA2 c _ _ _ _ _ _ _ _ _)
  · simp only [R0before_B V c t h0 1 rfl flush0_1 (fun _ => rfl) (fun _ _ => rfl), R0before_B V c t h0 2 rfl flush0_2 (fun _ => rfl) (fun _ _ => rfl), R0after1, R0after2]
    rw [R0outsAt_B V c t h0]
    dsimp only
    unfold R0outB1 R0outB2
    iintro ⟨HP, HQ, ⟨%d0, H0⟩, ⟨%d1, H1⟩, ⟨%d2, H2⟩⟩
    iapply ((R0runB c (grid0.coords t) _ _ _ _ _ _ (mt (R0hcond t).mp h0) (iblk0 V c 0 t) _ _).2.2 Set.univ _)
    iframe H0 H1 H2
    iintro ⟨H0, ⟨%e1, H1⟩, ⟨%e2, H2⟩⟩
    iframe HP HQ H0
    isplitl [H1]
    · unfold owns; iexists _; isplitr
      swap; · iexact H1
      ipureintro; exact View.read_writes_of_cover _ _ _ _ _ (R0coverB1 c _ _ _ _ _ _ _ _ _ _ _)
    unfold owns; iexists _; isplitr
    swap; · iexact H2
    ipureintro; exact View.read_writes_of_cover _ _ _ _ _ (R0coverB2 c _ _ _ _ _ _ _ _ _ _ _)

theorem body_obligation0 (c : Dev nD) : BodyObligation (dat0 (F := F) V c) (defs₀ (F := F)) Variants.none () Set.univ := fun t => by
  rw [bigSep_W0, bigSep_W0]
  exact R0sound_body V c t _ _

end Cert.KernelIdeal.Hand

end
-- ==== Proof.R1S.lean ====
import proofs.«104984_j16939351016189_1_alg».proof.Proof.Gen.KernelIdeal.Launch
import proofs.«104984_j16939351016189_1_alg».proof.Proof.Gen.KernelIdeal.Skeleton
import proofs.«104984_j16939351016189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic

/-- The condition of the body's one conditional; over the grid it holds at the first point only. -/
abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 32 = 0 :=
  (by decide +kernel : ∀ t : Fin grid1.N, cond1_0 (grid1.coords t) ↔ t.val % 32 = 0)

abbrev VO1_3 : View sig .tc .vmem S32x32 .f32 := (Memref.whole cc1_stg3_0 : Memref sig .tc .vmem S32x32 .f32).view

abbrev ms1_0 (t : Fin cfg1.N) : Memref sig .tc .vmem S32x32x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x32 .f32 := win1_3.stage (cfg1.slots t 3)
abbrev hs1_3 (t : Fin cfg1.N) : (ms1_3 t).IsWhole := hstage1_3 ((cfg1.slots t 3).cast nbuf1_3)

end Cert.KernelIdeal.Hand

end
-- ==== Proof.R1A.lean ====
import proofs.«104984_j16939351016189_1_alg».proof.Proof.R1S

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem

variable {F : FTy → Type} [FloatOps F]

local notation "𝕄" => MT nD τ sig Unit (Elt F) ℕ (UR sig nD τ) ℕ

/-- The branch taken: the counts are zeroed before they are read, so they start at anything; the witness is the pieces written. -/
def kernelRun1_A (c : Dev nD) (i : grid1.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S32x32 .f32) (harg4 : arg4.IsWhole) (hc0 : cond1_0 i)
    (x0 : Vec F S32x32x1024 .f32) (x1 : Vec F S32x1 .f32) (x2 : Vec F S32x1 .f32) :
    { L3 : List (View.Piece (Elt F) S32x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__hist_kernel i arg1 harg1 arg2 harg2 arg3 harg3 arg4 harg4) K } := by
  refine ⟨?_, fun E K => ?run⟩
  case run =>
    simp only [cc1__hist_kernel_eq_skeleton]; unfold cc1__hist_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.R1B.lean ====
import proofs.«104984_j16939351016189_1_alg».proof.Proof.R1A

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem

variable {F : FTy → Type} [FloatOps F]

local notation "𝕄" => MT nD τ sig Unit (Elt F) ℕ (UR sig nD τ) ℕ

/-- The branch not taken: the counts are read first, so they start at the running value `xo3`. -/
def kernelRun1_B (c : Dev nD) (i : grid1.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S32x32 .f32) (harg4 : arg4.IsWhole) (hc0 : ¬cond1_0 i)
    (x0 : Vec F S32x32x1024 .f32) (x1 : Vec F S32x1 .f32) (x2 : Vec F S32x1 .f32) (xo3 : Vec F S32x32 .f32) :
    { L3 : List (View.Piece (Elt F) S32x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__hist_kernel i arg1 harg1 arg2 harg2 arg3 harg3 arg4 harg4) K } := by
  refine ⟨?_, fun E K => ?run⟩
  case run =>
    simp only [cc1__hist_kernel_eq_skeleton]; unfold cc1__hist_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.R1.lean ====
import proofs.«104984_j16939351016189_1_alg».proof.Proof.R1B

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (i : grid1.Coords) (arg1 : Memref sig .tc .vmem S32x32x1024 .f32) (harg1 : arg1.IsWhole) (arg2 : Memref sig .tc .vmem S32x1 .f32) (harg2 : arg2.IsWhole) (arg3 : Memref sig .tc .vmem S32x1 .f32) (harg3 : arg3.IsWhole) (arg4 : Memref sig .tc .vmem S32x32 .f32) (harg4 : arg4.IsWhole)

section
variable (hc0 : cond1_0 i) (x0 : Vec F S32x32x1024 .f32) (x1 : Vec F S32x1 .f32) (x2 : Vec F S32x1 .f32)

theorem cover1_A_3 (y : S32x32.Idx) : ∃ pc ∈ (kernelRun1_A c i arg1 harg1 arg2 harg2 arg3 harg3 arg4 harg4 hc0 x0 x1 x2).1, y ∈ pc.1.set :=
  View.cover_of_tiledL _ S32x32.size (by sl_kernel_rfl) y

def out1_A_3 : Vec F S32x32 .f32 :=
  VO1_3.read (Elt F) (VO1_3.writes (Elt F) VO1_3.junk (kernelRun1_A c i arg1 harg1 arg2 harg2 arg3 harg3 arg4 harg4 hc0 x0 x1 x2).1)

end

section
variable (hc0 : ¬cond1_0 i) (x0 : Vec F S32x32x1024 .f32) (x1 : Vec F S32x1 .f32) (x2 : Vec F S32x1 .f32) (xo3 : Vec F S32x32 .f32)

theorem cover1_B_3 (y : S32x32.Idx) : ∃ pc ∈ (kernelRun1_B c i arg1 harg1 arg2 harg2 arg3 harg3 arg4 harg4 hc0 x0 x1 x2 xo3).1, y ∈ pc.1.set :=
  View.cover_of_tiledL (s := S32x32) _ S32x1.size (by sl_kernel_rfl) y

def out1_B_3 : Vec F S32x32 .f32 :=
  VO1_3.read (Elt F) (VO1_3.writes (Elt F) VO1_3.junk (kernelRun1_B c i arg1 harg1 arg2 harg2 arg3 harg3 arg4 harg4 hc0 x0 x1 x2 xo3).1)

end
end

/-- One point's effect on the running counts `p`: a first point starts afresh, a later point adds to `p`. -/
def step1 (c : Dev nD) (t : Fin cfg1.N) (p : Vec F S32x32 .f32) : Vec F S32x32 .f32 :=
  if h0 : t.val % 32 = 0 then
    out1_A_3 c _ _ (hs1_0 t) _ (hs1_1 t) _ (hs1_2 t) _ (hs1_3 t) ((hcond1_0 t).mpr h0) (iblk1 V c 0 t) (iblk1 V c 1 t) (iblk1 V c 2 t)
  else
    out1_B_3 c _ _ (hs1_0 t) _ (hs1_1 t) _ (hs1_2 t) _ (hs1_3 t) (mt (hcond1_0 t).mp h0) (iblk1 V c 0 t) (iblk1 V c 1 t) (iblk1 V c 2 t) p

/-- The counts after position `n`: the points' effects in turn (position 0 is a first point, so what it starts from does not matter). -/
def outsAt1 (c : Dev nD) : (n : ℕ) → n < cfg1.N → Vec F S32x32 .f32
  | 0, hn => step1 V c ⟨0, hn⟩ (VO1_3.read (Elt F) VO1_3.junk)
  | n + 1, hn => step1 V c ⟨n + 1, hn⟩ (outsAt1 c n (Nat.lt_of_succ_lt hn))

theorem outsAt1_A (c : Dev nD) (t : Fin cfg1.N) (h0 : t.val % 32 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨_ | n, hn⟩ := t
  · rfl
  · exact (dif_pos h0).trans rfl

theorem outsAt1_B (c : Dev nD) (t : Fin cfg1.N) (h0 : ¬t.val % 32 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨_ | n, hn⟩ := t
  · exact absurd (Nat.zero_mod _) h0
  · exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt) := rfl

theorem before1_0 (c : Dev nD) (t : Fin cfg1.N) (d) : (dat1 V c).before 0 t d = iblk1 V c 0 t :=
  (Dat.before_in_eq_fetched _ 0 rfl (fun _ => rfl) (fun _ _ _ => rfl) (fun _ => rfl) t d).trans rfl
theorem before1_1 (c : Dev nD) (t : Fin cfg1.N) (d) : (dat1 V c).before 1 t d = iblk1 V c 1 t :=
  (Dat.before_in_eq_fetched _ 1 rfl (fun _ => rfl) (fun _ _ _ => rfl) (fun _ => rfl) t d).trans rfl
theorem before1_2 (c : Dev nD) (t : Fin cfg1.N) (d) : (dat1 V c).before 2 t d = iblk1 V c 2 t :=
  (Dat.before_in_eq_fetched _ 2 rfl (fun _ => rfl) (fun _ _ _ => rfl) (fun _ => rfl) t d).trans rfl

theorem before1_3_B (c : Dev nD) (t : Fin cfg1.N) (h0 : ¬t.val % 32 = 0) (d) :
    (dat1 V c).before 3 t d = (outsAt1 V c (t.val - 1) (Nat.lt_of_le_of_lt (Nat.sub_le _ _) t.isLt)) := by
  have hN : t.val < 32 := lt_of_lt_of_eq t.isLt (show cfg1.N = 32 from N_1)
  exact Dat.before_out_kept _ 3 rfl t (by omega) (Bool.eq_false_iff.mpr fun h => by have := (flush1_3 _).mp h; dsimp only at this; omega)
    (fun _ => rfl) (fun _ _ => rfl) d

theorem sound_body1 (c : Dev nD) (t : Fin cfg1.N) (P Q : sProp 𝕄) :
    iprop(P ∗ Q
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) fun _ =>
      iprop(P ∗ Q
        ∗ owns (c : Thread nD τ) (ms1_0 t) fullShare (iblk1 V c 0 t)
        ∗ owns (c : Thread nD τ) (ms1_1 t) fullShare (iblk1 V c 1 t)
        ∗ owns (c : Thread nD τ) (ms1_2 t) fullShare (iblk1 V c 2 t)
        ∗ owns (c : Thread nD τ) (ms1_3 t) fullShare (outsAt1 V c t.val t.isLt)) := by
  unfold bodyAt1
  simp only [before1_0, before1_1, before1_2]
  by_cases h0 : t.val % 32 = 0
  · rw [outsAt1_A V c t h0]
    unfold out1_A_3
    iintro ⟨HP, HQ, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    iframe H0 H1 H2
    isplitl [H3]; · iexists _; iexact H3
    iintro ⟨H0, H1, H2, ⟨%e3, H3⟩⟩
    iframe HP HQ H0 H1 H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HP, HQ, ⟨%d0, H0⟩, ⟨%d1, H1⟩, ⟨%d2, H2⟩, ⟨%d3, H3⟩⟩
    iapply ((kernelRun1_B c (grid1.coords t) _ _ _ _ _ _ _ _ (mt (hcond1_0 t).mp h0) (iblk1 V c 0 t) (iblk1 V c 1 t) (iblk1 V c 2 t) _).2 Set.univ _)
    iframe H0 H1 H2 H3
    iintro ⟨H0, H1, H2, ⟨%e3, H3⟩⟩
    iframe HP HQ H0 H1 H2
    unfold owns; iexists _; isplitr
    swap; · iexact H3
    ipureintro; exact View.read_writes_of_cover _ _ _ _ _ (cover1_B_3 c _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t _ _

end Cert.KernelIdeal.Hand

end
-- ==== Proof.R2.lean ====
import proofs.«104984_j16939351016189_1_alg».proof.Proof.Gen.KernelIdeal.Launch
import proofs.«104984_j16939351016189_1_alg».proof.Proof.Gen.KernelIdeal.Skeleton
import proofs.«104984_j16939351016189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev R2r0 : Rect S32x32x1024 := Rect.unit (s := S32x32x1024) ![0, 0, 0] S32x32x1024.size inb_S32x32x1024_S32x32x1024_0_0_0
abbrev R2r1 : Rect S32x4 := Rect.unit (s := S32x4) ![0, 0] S32x4.size inb_S32x4_S32x4_0_0

/-- What the body leaves in the output buffer: its one store, over the whole block. -/
def R2out2 (x0 : Vec F S32x32x1024 .f32) (x1 : Vec F S32x4 .f32) : Vec F S32x32x1024 .f32 :=
  View.canon [⟨R2r0, k2_pay1 (View.ld x0 R2r0) (View.ld x1 R2r1)⟩]

theorem R2sound_kernel (c : Dev nD) (E : Set ℕ) (i : grid2.Coords)
    (arg1 : Memref sig .tc .vmem S32x32x1024 .f32) (harg1 : arg1.IsWhole)
    (arg2 : Memref sig .tc .vmem S32x4 .f32) (harg2 : arg2.IsWhole)
    (arg3 : Memref sig .tc .vmem S32x32x1024 .f32) (harg3 : arg3.IsWhole)
    (x0 : Vec F S32x32x1024 .f32) (x1 : Vec F S32x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (R2out2 x0 x1)) -∗ K ⟨⟩))
      ⊢ wp frame (wpE (defs₀ (F := F)) Variants.none c none) E (cc2__refine_kernel i arg1 harg1 arg2 harg2 arg3 harg3) K := by
  simp only [cc2__refine_kernel_eq_skeleton]; unfold cc2__refine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S32x32x1024.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => R2out2 (iblk2 V c 0 t) (iblk2 V c 1 t)
  Φ _ := Pipeline.ΦA spec2 c
  q _ := fullShare
  owed _ := 0

theorem R2after2 (c : Dev nD) (t : Fin cfg2.N) : (dat2 V c).after 2 t = R2out2 (iblk2 V c 0 t) (iblk2 V c 1 t) := by dsimp only [dat2]

theorem R2before0 (c : Dev nD) (t : Fin cfg2.N) (d) : (dat2 V c).before 0 t d = iblk2 V c 0 t :=
  (Dat.before_in_eq_fetched _ 0 rfl (fun _ => rfl) (fun _ _ _ => rfl) (fun _ => rfl) t d).trans rfl
theorem R2before1 (c : Dev nD) (t : Fin cfg2.N) (d) : (dat2 V c).before 1 t d = iblk2 V c 1 t :=
  (Dat.before_in_eq_fetched _ 1 rfl (fun _ => rfl) (fun _ _ _ => rfl) (fun _ => rfl) t d).trans rfl

theorem R2sound_body (c : Dev nD) (t : Fin cfg2.N) (P Q : sProp 𝕄) :
    iprop(P ∗ Q
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) fun _ =>
      iprop(P ∗ Q
        ∗ owns (c : Thread nD τ) (st2_0 t) fullShare (iblk2 V c 0 t)
        ∗ owns (c : Thread nD τ) (st2_1 t) fullShare (iblk2 V c 1 t)
        ∗ owns (c : Thread nD τ) (st2_2 t) fullShare ((dat2 V c).after 2 t)) := by
  unfold bodyAt2
  simp only [R2before0, R2before1, R2after2]
  iintro ⟨HP, HQ, ⟨%d0, H0⟩, ⟨%d1, H1⟩, ⟨%d2, H2⟩⟩
  iapply (R2sound_kernel c Set.univ _ _ _ _ _ _ _ (iblk2 V c 0 t) (iblk2 V c 1 t) _)
  iframe H0 H1
  isplitl [H2]; · iexists _; iexact H2
  iintro ⟨H0, H1, H2⟩
  iframe HP HQ H0 H1 H2

theorem body_obligation2 (c : Dev nD) : BodyObligation (dat2 (F := F) V c) (defs₀ (F := F)) Variants.none () Set.univ := fun t => by
  rw [bigSep_W2, bigSep_W2]
  exact R2sound_body V c t _ _

end Cert.KernelIdeal.Hand

end
-- ==== Proof.Run.lean ====
import proofs.«104984_j16939351016189_1_alg».proof.Proof.R0
import proofs.«104984_j16939351016189_1_alg».proof.Proof.R1
import proofs.«104984_j16939351016189_1_alg».proof.Proof.R2
import proofs.«104984_j16939351016189_1_alg».proof.Proof.Gen.KernelIdeal.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The buffers' contents after a host stretch. -/
abbrev aft (ops : List (HloOp τ sig (Elt F))) (W : Dev nD → Valuation τ sig (Elt F)) : Dev nD → Valuation τ sig (Elt F) :=
  fun c => StableHlo.after ops (W c)

abbrev atTc (W : Dev nD → Valuation τ sig (Elt F)) (c : Dev nD) (b : Ref sig .tc) : Buf (Elt F) ((c : Thread nD τ).loc b) := W c b

abbrev W0 : Dev nD → Valuation τ sig (Elt F) := fun c b => m (c, b)
abbrev W1 := aft hostOps0 (W0 m)
abbrev X1 := atTc (W1 m)

/-- A region's exit contents: its arrays at their final contents, every other buffer as entered. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev X2 := atTc (W2 m)
def W3 (c : Dev nD) : Valuation τ sig (Elt F) :=
  Pipeline.withArrays spec1 c (W2 m c) fun w => (dat1 (X2 m) c).arrAt w cfg1.N
theorem W3_arr (c : Dev nD) (w : Fin cfg1.W) :
    W3 m c (Proc.devRef .tc (Pipeline.arrRef spec1 w)) = (dat1 (X2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb

abbrev W4 := aft hostOps2 (W3 m)
abbrev W5 := aft hostOps2_1 (W4 m)
abbrev W6 := aft hostOps2_2 (W5 m)
abbrev W7 := aft hostOps2_3 (W6 m)
abbrev W8 := aft hostOps2_4 (W7 m)
abbrev W9 := aft hostOps2_5 (W8 m)
abbrev W10 := aft hostOps2_6 (W9 m)
abbrev W11 := aft hostOps2_7 (W10 m)
abbrev W12 := aft hostOps2_8 (W11 m)
abbrev W13 := aft hostOps2_9 (W12 m)

abbrev X13 := atTc (W13 m)
def W14 (c : Dev nD) : Valuation τ sig (Elt F) :=
  Pipeline.withArrays spec2 c (W13 m c) fun w => (dat2 (X13 m) c).arrAt w cfg2.N
theorem W14_arr (c : Dev nD) (w : Fin cfg2.W) :
    W14 m c (Proc.devRef .tc (Pipeline.arrRef spec2 w)) = (dat2 (X13 m) c).arrAt w cfg2.N :=
  Pipeline.withArrays_arr spec2 launch2.win.arr_inj c _ _ w
theorem W14_of_ne (c : Dev nD) (b : Ref sig .tc) (hb : ∀ w, Pipeline.arrRef spec2 w ≠ b) :
    W14 m c (Proc.devRef .tc b) = W13 m c (Proc.devRef .tc b) :=
  Pipeline.withArrays_of_ne spec2 c _ _ b hb

abbrev W15 := aft hostOps3 (W14 m)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X2 m) c
  | ⟨2, _⟩ => fun c => dat2 (X13 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

/-- Region `p` takes the buffers from the contents `V` to `V'`: its arrays at what its points leave, every other buffer as it was. -/
def reg (p : Fin 3) (l : Pipeline.LaunchFacts (nD := nD) (τ := τ) cfgs p) (V V' : Dev nD → Valuation τ sig (Elt F))
    (hb : ∀ c, BodyObligation (pdats m p c) (defs₀ (F := F)) Variants.none () Set.univ)
    (hF : ∀ c w, V' c (Proc.devRef .tc (Pipeline.arrRef (cfgs p).spec w)) = (pdats m p c).arrAt w (cfgs p).N)
    (hne : ∀ c (b : Ref sig .tc), (∀ w, Pipeline.arrRef (cfgs p).spec w ≠ b) → V' c (Proc.devRef .tc b) = V c (Proc.devRef .tc b))
    (hA : ∀ c w, (pdats m p c).A w = V c (Proc.devRef .tc (Pipeline.arrRef (cfgs p).spec w)) := by intros; rfl)
    (hΦ : ∀ c i, (pdats m p c).Φ i = Pipeline.ΦA (cfgs p).spec c := by intros; rfl)
    (hq : ∀ c w, (pdats m p c).q w = fullShare := by intros; rfl)
    (ho : ∀ c t, (pdats m p c).owed t = 0 := by intros; rfl)
    (hr : ∀ c t, (pdats m p c).recorded t = Set.univ := by intros; rfl) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc V c)
  hentry c := by
    rw [Pipeline.ownSems0_none]
    have hsplit := Pipeline.arrays_of_unscopedBufs (p := p) (pcfgs (F := F)) adm (pdats m) l.win l.arr_whole c
      ((pdats m p c).share_full (hq c)) (atTc V c) (hA c)
    rw [Pipeline.unscopedBufs_held] at hsplit
    iintro ⟨⟨Hub, Hp, HO⟩, -, -⟩
    icases hsplit $$ Hub with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [ho, hr]
    icases HO with ⟨%W, HO⟩; iexists W; iframe
    ipureintro; exact fun _ _ => Or.inl trivial
  hin c := by
    rw [hΦ]; unfold Pipeline.ΦA
    iintro ⟨Hp, -, Hr⟩
    iframe
  hout c := by
    rw [Pipeline.ownSems0_none, hΦ]; unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      l.win l.arr_whole c (pdats m) ((pdats m p c).share_full (hq c))
      (atTc V c) (atTc V' c) ((pdats m p c).arrAt · (cfgs p).N) (fun w => (hF c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [ho]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg m 0 launch0 (W1 m) (W2 m) (body_obligation0 (X1 m)) (W2_arr m) (W2_of_ne m)),
    .region (reg m 1 launch1 (W2 m) (W3 m) (body_obligation1 (X2 m)) (W3_arr m) (W3_of_ne m)),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .host (hseg hostOps2_3 hostOps2_3_sub hostOps2_3_fresh (W6 m)),
    .host (hseg hostOps2_4 hostOps2_4_sub hostOps2_4_fresh (W7 m)),
    .host (hseg hostOps2_5 hostOps2_5_sub hostOps2_5_fresh (W8 m)),
    .host (hseg hostOps2_6 hostOps2_6_sub hostOps2_6_fresh (W9 m)),
    .host (hseg hostOps2_7 hostOps2_7_sub hostOps2_7_fresh (W10 m)),
    .host (hseg hostOps2_8 hostOps2_8_sub hostOps2_8_fresh (W11 m)),
    .host (hseg hostOps2_9 hostOps2_9_sub hostOps2_9_fresh (W12 m)),
    .region (reg m 2 launch2 (W13 m) (W14 m) (body_obligation2 (X13 m)) (W14_arr m) (W14_of_ne m)),
    .host (hseg hostOps3 hostOps3_sub hostOps3_fresh (W14 m)) ]

/-- @main followed item by item through the contents `W0`, …, `W15`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) adm (pdats m) () cellOf_inj emb₁ defs₀ 𝒱₀ L lv m ρ main (segs m)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp) (u₀ := _)
    (hu₀ := by
      rw [BI.bigSep_emp_const, ownU_emb₁]
      iintro Hu; imodintro
      isplitl [Hu]; · iexact Hu
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W15 m c) ∗ ∃ r, prngReg c r))
    (hch := by
      and_intros
      rotate_right
      · exact fun _ => sep_assoc.2
      all_goals exact fun _ => .rfl)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

end Cert.KernelIdeal.Hand

end
-- ==== Proof.RunArgs.lean ====
import proofs.«104984_j16939351016189_1_alg».proof.Proof.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (c : Dev nD) (r : Ref sig .tc)

/-- No host stretch between the second and the third region writes `r`. -/
abbrev Mid : Prop :=
  r ∉ hostOps2_W ∧ r ∉ hostOps2_1_W ∧ r ∉ hostOps2_2_W ∧ r ∉ hostOps2_3_W ∧ r ∉ hostOps2_4_W ∧ r ∉ hostOps2_5_W
    ∧ r ∉ hostOps2_6_W ∧ r ∉ hostOps2_7_W ∧ r ∉ hostOps2_8_W ∧ r ∉ hostOps2_9_W

theorem W13_of (h : Mid r := by decide) : W13 m c (Proc.devRef .tc r) = W3 m c (Proc.devRef .tc r) :=
  have ⟨h0, h1, h2, h3, h4, h5, h6, h7, h8, h9⟩ := h
  (StableHlo.after_of_writes_sub _ _ hostOps2_9_writes h9).trans <| (StableHlo.after_of_writes_sub _ _ hostOps2_8_writes h8).trans <|
  (StableHlo.after_of_writes_sub _ _ hostOps2_7_writes h7).trans <| (StableHlo.after_of_writes_sub _ _ hostOps2_6_writes h6).trans <|
  (StableHlo.after_of_writes_sub _ _ hostOps2_5_writes h5).trans <| (StableHlo.after_of_writes_sub _ _ hostOps2_4_writes h4).trans <|
  (StableHlo.after_of_writes_sub _ _ hostOps2_3_writes h3).trans <| (StableHlo.after_of_writes_sub _ _ hostOps2_2_writes h2).trans <|
  (StableHlo.after_of_writes_sub _ _ hostOps2_1_writes h1).trans <| StableHlo.after_of_writes_sub _ _ hostOps2_writes h0

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes and that is no region's array ends as launched. -/
theorem kept {s : MemSt nD τ sig (Elt F)} (hs : ∀ b ∈ Pipeline.ucRefs τ sig, s.mem ((c : Thread nD τ).1, b) = W15 m c b)
    (h : ¬ (Proc.devRef .tc r : DevRef τ sig).isScoped ∧ r ∉ hostOps0_W ∧ r ∉ hostOps3_W ∧ (∀ w, Pipeline.arrRef spec0 w ≠ r)
      ∧ (∀ w, Pipeline.arrRef spec1 w ≠ r) ∧ ∀ w, Pipeline.arrRef spec2 w ≠ r := by decide) (h' : Mid r := by decide) :
    s.mem ((c : Thread nD τ).loc r) = m ((c : Thread nD τ).loc r) :=
  (hs _ (mem_uc r h.1)).trans <| (StableHlo.after_of_writes_sub _ _ hostOps3_writes h.2.2.1).trans <|
  (W14_of_ne m c r h.2.2.2.2.2).trans <| (W13_of m c r h').trans <| (W3_of_ne m c r h.2.2.2.2.1).trans <|
  (W2_of_ne m c r h.2.2.2.1).trans <| StableHlo.after_of_writes_sub _ _ hostOps0_writes h.2.1

end Cert.KernelIdeal.Hand

end
-- ==== Proof.RefStages.lean ====
import proofs.«104984_j16939351016189_1_alg».proof.ReferenceIdeal

noncomputable section

namespace Cert.ReferenceIdeal.Stages

open Idealize.ShloMosaic Idealize.ShloMosaic.TcCoe
open Cert.ReferenceIdeal

variable {F : FTy → Type} [FloatOps F] [Facts]
open Facts₀ Facts

abbrev TF (F : FTy → Type) (S : Shape) : Type := (⟨S, .f32⟩ : BufTy).Contents (Elt F)

abbrev TI (F : FTy → Type) (S : Shape) : Type := (⟨S, .i32⟩ : BufTy).Contents (Elt F)

def flat (x : (TF F S32x1x1024x1024)) : (TF F S32x1048576) :=
  shapeCast S32x1048576 x shapeCasts_S32x1x1024x1024_S32x1048576

def lo (x : (TF F S32x1x1024x1024)) : (TF F S32x1) :=
  broadcastInDim S32x1 ![0] bcast_S32_S32x1_0
    ((fun x v => Host.reduce FloatOps.minimumf x v reducesTo_S32x1048576_S32_d1 h_S_ : (TF F S32x1048576) → (TF F S_) → (TF F S32))
      (flat x) (constant S_ .f32 0x7F800000#32))

def hi (x : (TF F S32x1x1024x1024)) : (TF F S32x1) :=
  broadcastInDim S32x1 ![0] bcast_S32_S32x1_0
    ((fun x v => Host.reduce FloatOps.maximumf x v reducesTo_S32x1048576_S32_d1 h_S_ : (TF F S32x1048576) → (TF F S_) → (TF F S32))
      (flat x) (constant S_ .f32 0xFF800000#32))

def safe (l h : (TF F S32x1)) : (TF F S32x1) :=
  select (cmpf .ogt (subf h l) (broadcastInDim S32x1 ![] bcast_S_S32x1 (constant S_ .f32 0x00000000#32)))
    (subf h l) (broadcastInDim S32x1 ![] bcast_S_S32x1 (constant S_ .f32 0x3F800000#32))

def bins (x : (TF F S32x1x1024x1024)) (l h : (TF F S32x1)) : (TI F S32x1048576) :=
  minsi (broadcastInDim S32x1048576 ![] bcast_S_S32x1048576 (id (constantI S_ 32 31#32)))
    (maxsi (broadcastInDim S32x1048576 ![] bcast_S_S32x1048576 (id (constantI S_ 32 0#32)))
      (fptosi 32 (Host.floor (mulf
        (Host.divf (subf (flat x) (broadcastInDim S32x1048576 ![0, 1] bcast_S32x1_S32x1048576_0_1 l))
          (broadcastInDim S32x1048576 ![0, 1] bcast_S32x1_S32x1048576_0_1 (safe l h)))
        (broadcastInDim S32x1048576 ![] bcast_S_S32x1048576 (constant S_ .f32 0x42000000#32))))))

def slots (x : (TF F S32x1x1024x1024)) (l h : (TF F S32x1)) : (TI F S33554432x1) :=
  let g : (TI F S33554432) := shapeCast S33554432
    (addi (bins x l h)
      (broadcastInDim S32x1048576 ![0, 1] bcast_S32x1_S32x1048576_0_1
        (muli (broadcastInDim S32x1 ![0] bcast_S32_S32x1_0 (iotaInDim S32 32 0))
          (broadcastInDim S32x1 ![] bcast_S_S32x1 (constantI S_ 32 32#32))))) shapeCasts_S32x1048576_S33554432
  broadcastInDim S33554432x1 ![0] bcast_S33554432_S33554432x1_0
    (select (cmpi .slt g (broadcastInDim S33554432 ![] bcast_S_S33554432 (constantI S_ 32 0#32)))
      (addi g (broadcastInDim S33554432 ![] bcast_S_S33554432 (constantI S_ 32 1024#32))) g)

def counts (x : (TF F S32x1x1024x1024)) (l h : (TF F S32x1)) : (TF F S32x32) :=
  shapeCast S32x32
    ((fun x i u => Host.scatterAdd scatter_S1024_S33554432x1_S33554432_n_0_0_1 x i u : (TF F S1024) → (TI F S33554432x1) → (TF F S33554432) → (TF F S1024))
      (broadcastInDim S1024 ![] bcast_S_S1024 (constant S_ .f32 0x00000000#32))
      (slots x l h)
      (broadcastInDim S33554432 ![] bcast_S_S33554432 (constant S_ .f32 0x3F800000#32)))
    shapeCasts_S1024_S32x32

def features (cnt : (TF F S32x32)) (l h : (TF F S32x1)) (mu : (TF F S32x1)) : (TF F S32x35) :=
  let s : (TF F S32) := (fun x v => Host.reduceAdd x v reducesTo_S32x32_S32_d1 h_S_ : (TF F S32x32) → (TF F S_) → (TF F S32)) cnt (constant S_ .f32 0x00000000#32)
  let hist : (TF F S32x32) := Host.divf cnt (broadcastInDim S32x32 ![0, 1] bcast_S32x1_S32x32_0_1 (broadcastInDim S32x1 ![0] bcast_S32_S32x1_0 s))
  let v40 : (TF F S32x34) := (fun u : (k : Fin 3) → ((![main_v39, main_v2, main_v4] k).ty.Contents (Elt F)) => concatenate S32x34 1 [⟨S32x32, u 0⟩, ⟨S32x1, u 1⟩, ⟨S32x1, u 2⟩] concatenates_S32x32_S32x1_S32x1_S32x34_d1)
    (fun k => match k with | 0 => hist | 1 => l | 2 => h)
  (fun a b => concatenate S32x35 1 [⟨S32x34, a⟩, ⟨S32x1, b⟩] concatenates_S32x34_S32x1_S32x35_d1 : (TF F S32x34) → (TF F S32x1) → (TF F S32x35)) v40 mu

def lrelu64 (y : (TF F S32x64)) : (TF F S32x64) :=
  select (cmpf .oge y (broadcastInDim S32x64 ![] bcast_S_S32x64 (constant S_ .f32 0x00000000#32))) y
    (mulf (broadcastInDim S32x64 ![] bcast_S_S32x64 (id (constant S_ .f32 0x3C23D70A#32))) y)

def lrelu4 (y : (TF F S32x4)) : (TF F S32x4) :=
  select (cmpf .oge y (broadcastInDim S32x4 ![] bcast_S_S32x4 (constant S_ .f32 0x00000000#32))) y
    (mulf (broadcastInDim S32x4 ![] bcast_S_S32x4 (id (constant S_ .f32 0x3C23D70A#32))) y)

def bias64 (y : (TF F S32x64)) (b : (TF F S64)) : (TF F S32x64) :=
  addf y (broadcastInDim S32x64 ![0, 1] bcast_S1x64_S32x64_0_1 (broadcastInDim S1x64 ![1] bcast_S64_S1x64_1 b))

def coeffs (vec : (TF F S32x35)) (W1 : (TF F S35x64)) (b1 : (TF F S64)) (W2 : (TF F S64x64)) (b2 : (TF F S64)) (W3 : (TF F S99x64)) (b3 : (TF F S64))
    (W4 : (TF F S64x64)) (b4 : (TF F S64)) (W5 : (TF F S64x4)) (b5 : (TF F S4)) : (TF F S32x4) :=
  let h1 := lrelu64 (bias64 ((fun l r => Host.dotGeneral dot_S32x35_S35x64_S32x64_1_0_0_1_n_n none l r : (TF F S32x35) → (TF F S35x64) → (TF F S32x64)) vec W1) b1)
  let h2 := lrelu64 (bias64 ((fun l r => Host.dotGeneral dot_S32x64_S64x64_S32x64_1_0_0_1_n_n none l r : (TF F S32x64) → (TF F S64x64) → (TF F S32x64)) h1 W2) b2)
  let c3 : (TF F S32x99) := (fun a b => concatenate S32x99 1 [⟨S32x64, a⟩, ⟨S32x35, b⟩] concatenates_S32x64_S32x35_S32x99_d1 : (TF F S32x64) → (TF F S32x35) → (TF F S32x99)) h2 vec
  let h3 := lrelu64 (bias64 ((fun l r => Host.dotGeneral dot_S32x99_S99x64_S32x64_1_0_0_1_n_n none l r : (TF F S32x99) → (TF F S99x64) → (TF F S32x64)) c3 W3) b3)
  let h4 := lrelu64 (bias64 ((fun l r => Host.dotGeneral dot_S32x64_S64x64_S32x64_1_0_0_1_n_n none l r : (TF F S32x64) → (TF F S64x64) → (TF F S32x64)) h3 W4) b4)
  lrelu4 (addf ((fun l r => Host.dotGeneral dot_S32x64_S64x4_S32x4_1_0_0_1_n_n none l r : (TF F S32x64) → (TF F S64x4) → (TF F S32x4)) h4 W5)
    (broadcastInDim S32x4 ![0, 1] bcast_S1x4_S32x4_0_1 (broadcastInDim S1x4 ![1] bcast_S4_S1x4_1 b5)))

def spread0 (a : (TF F S32x4)) : (TF F S32x1x1024x1024) :=
  broadcastInDim S32x1x1024x1024 ![0, 1, 2, 3] bcast_S32x1x1x1_S32x1x1024x1024_0_1_2_3
    (broadcastInDim S32x1x1x1 ![0] bcast_S32_S32x1x1x1_0 (shapeCast S32 ((extractStridedSlice S32x1 ![0, 0] · slices_S32x4_S32x1_0_0) a) shapeCasts_S32x1_S32))
def spread1 (a : (TF F S32x4)) : (TF F S32x1x1024x1024) :=
  broadcastInDim S32x1x1024x1024 ![0, 1, 2, 3] bcast_S32x1x1x1_S32x1x1024x1024_0_1_2_3
    (broadcastInDim S32x1x1x1 ![0] bcast_S32_S32x1x1x1_0 (shapeCast S32 ((extractStridedSlice S32x1 ![0, 1] · slices_S32x4_S32x1_0_1) a) shapeCasts_S32x1_S32))
def spread2 (a : (TF F S32x4)) : (TF F S32x1x1024x1024) :=
  broadcastInDim S32x1x1024x1024 ![0, 1, 2, 3] bcast_S32x1x1x1_S32x1x1024x1024_0_1_2_3
    (broadcastInDim S32x1x1x1 ![0] bcast_S32_S32x1x1x1_0 (shapeCast S32 ((extractStridedSlice S32x1 ![0, 2] · slices_S32x4_S32x1_0_2) a) shapeCasts_S32x1_S32))
def spread3 (a : (TF F S32x4)) : (TF F S32x1x1024x1024) :=
  broadcastInDim S32x1x1024x1024 ![0, 1, 2, 3] bcast_S32x1x1x1_S32x1x1024x1024_0_1_2_3
    (broadcastInDim S32x1x1x1 ![0] bcast_S32_S32x1x1x1_0 (shapeCast S32 ((extractStridedSlice S32x1 ![0, 3] · slices_S32x4_S32x1_0_3) a) shapeCasts_S32x1_S32))

def step (a v : (TF F S32x1x1024x1024)) : (TF F S32x1x1024x1024) := addf v (mulf a (subf v (mulf v v)))

def refine (x : (TF F S32x1x1024x1024)) (a : (TF F S32x4)) : (TF F S32x1x1024x1024) :=
  step (spread3 a) (step (spread2 a) (step (spread1 a) (step (spread0 a) x)))

-- The reference's result as one function of its twelve arguments.
def result (x : (TF F S32x1x1024x1024)) (mu : (TF F S32x1)) (W1 : (TF F S35x64)) (b1 : (TF F S64)) (W2 : (TF F S64x64)) (b2 : (TF F S64)) (W3 : (TF F S99x64)) (b3 : (TF F S64))
    (W4 : (TF F S64x64)) (b4 : (TF F S64)) (W5 : (TF F S64x4)) (b5 : (TF F S4)) : (TF F S32x1x1024x1024) :=
  refine x (coeffs (features (counts x (lo x) (hi x)) (lo x) (hi x) mu) W1 b1 W2 b2 W3 b3 W4 b4 W5 b5)

end Cert.ReferenceIdeal.Stages

end
-- ==== Proof.Val1K.lean ====
import proofs.«104984_j16939351016189_1_alg».proof.Proof.R1
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.Hand

open Cert.KernelIdeal Cert.KernelIdeal.Gen
open Idealize.ShloMosaic Idealize.ShloMosaic.Tactic Idealize.ShloMosaic.ValueIdx

/-- One column of the counts: what was loaded plus, image by image, how many of the block's bin words equal `kw`. -/
def R1col {F : FTy → Type} [FloatOps F] (kw : BitVec 32) (v27 : IVec S32x32x1024 32) (v : Vec F S32x1 .f32) : FVec F S32x1 .f32 :=
  addf (shapeCast S32x1 v shapeCasts_S32x1_S32x1)
    (shapeCast S32x1
      (multiReduction .add [1] S32
        (multiReduction .add [2] S32x32 (sitofp .f32 (extui 32 (cmpi .eq v27 (broadcast S32x32x1024 kw)) natLt_1_32))
          0x00000000#32 reduces_S32x32x1024_S32x32 (.inl rfl) rfl)
        0x00000000#32 reduces_S32x32_S32 (.inl rfl) rfl)
      shapeCasts_S32_S32x1)

def R1ind (a kw : BitVec 32) : EReal := FloatOps.sitofp (F := Ideal) .f32 ((IntOp.cmpi .eq a kw).setWidth 32)

theorem R1col_apply (kw : BitVec 32) (v27 : IVec S32x32x1024 32) (v : Vec Ideal S32x1 .f32) (x : S32x1.Idx) :
    R1col kw v27 v x = v x + ∑ r : Fin 32, ∑ w : Fin 1024, R1ind (v27 (ix3 (n0 := 32) (n1 := 32) (n2 := 1024) (x 0) r w)) kw := by
  unfold R1col
  rw [addf_apply, shapeCast_self]
  congr 1
  rw [shapeCast_apply _ _ x (ix1 (n := 32) (x 0)) (by
    rw [Shape.rowMajor_val_one, Shape.rowMajor_val_two]
    have h1 : (x 1).val < 1 := (x 1).isLt
    show (x 0).val = (x 0).val * 1 + (x 1).val
    omega)]
  refine (Ideal.multiReduction_add_single _ _ reduces_S32x32_S32 _ _ _).trans ?_
  refine Finset.sum_congr rfl fun r _ => ?_
  refine (Ideal.multiReduction_add_single _ _ reduces_S32x32x1024_S32x32 _ _ _).trans ?_
  refine Finset.sum_congr rfl fun w _ => ?_
  exact congrArg (fun t => R1ind (v27 t) kw) (funext fun a => by fin_cases a <;> rfl)

/-- The counts after a point that found them at `xo`: entry [b,k] gains the number of bin words of image `b` equal to `k`. -/
def R1G (v27 : IVec S32x32x1024 32) (xo : Vec Ideal S32x32 .f32) : Vec Ideal S32x32 .f32 :=
  fun j => xo j + ∑ r : Fin 32, ∑ w : Fin 1024,
    R1ind (v27 (ix3 (n0 := 32) (n1 := 32) (n2 := 1024) (j 0) r w)) (BitVec.ofNat 32 (j 1).val)

/-- Column `k` of the [32,32] counts. -/
abbrev R1rect (k : ℕ) (inb : ∀ a, (![0, k] : Fin 2 → ℕ) a + (![32, 1] : Fin 2 → ℕ) a ≤ S32x32.size a) : Rect S32x32 :=
  Rect.unit ![0, k] ![32, 1] inb

section Column
variable (k : ℕ) (inb : ∀ a, (![0, k] : Fin 2 → ℕ) a + (![32, 1] : Fin 2 → ℕ) a ≤ S32x32.size a)
  (v27 : IVec S32x32x1024 32) (z : Vec Ideal S32x32 .f32)

theorem R1rect_emb (x : (R1rect k inb).shape.Idx) :
    (R1rect k inb).emb x = ix2 (n0 := 32) (n1 := 32) ⟨(x 0).val, (x 0).isLt⟩ ⟨k, inb 1⟩ := by
  have hx1 : (x 1).val < 1 := (x 1).isLt
  funext a
  match a with
  | ⟨0, _⟩ => exact Fin.ext (by rw [Rect.emb_apply]; show 0 + 1 * (x 0).val = (x 0).val; omega)
  | ⟨1, _⟩ => exact Fin.ext (by rw [Rect.emb_apply]; show k + 1 * (x 1).val = k; omega)

theorem R1piece (x : (R1rect k inb).shape.Idx) :
    R1col (BitVec.ofNat 32 k) v27 (View.ld z (R1rect k inb)) x = R1G v27 z ((R1rect k inb).emb x) := by
  rw [R1col_apply]
  show z ((R1rect k inb).emb x) + _ = R1G v27 z ((R1rect k inb).emb x)
  rw [R1rect_emb]
  rfl

/-- If the writes so far give the target left of column `k` and `z` elsewhere, adding column `k`'s write, the column
    formula at what it reads of them, gives the target left of column `k + 1`. -/
theorem R1stepA {sig : RefSig} {κ : Kind} {sp : Space} (v : View sig κ sp S32x32 .f32)
    (L : List (View.Piece (Elt Ideal) S32x32 .f32))
    (h : ∀ y, View.canon L y = if (y 1).val < k then R1G v27 z y else z y) (y : S32x32.Idx) :
    View.canon (⟨R1rect k inb, R1col (BitVec.ofNat 32 k) v27 (v.readCov L (R1rect k inb).toLoadRect)⟩ :: L) y
      = if (y 1).val < k + 1 then R1G v27 z y else z y := by
  by_cases hm : y ∈ (R1rect k inb).set
  · obtain ⟨x, rfl⟩ := (R1rect k inb).exists_idx_of_mem hm
    have e1 : ∀ x, ((R1rect k inb).emb x 1).val = k := fun x => by rw [R1rect_emb]
    have hu : v.readCov L (R1rect k inb).toLoadRect = View.ld z (R1rect k inb) := by
      rw [View.readCov_eq_canon']
      funext j
      exact (h _).trans (if_neg (by rw [show (R1rect k inb).toLoadRect.idx j = (R1rect k inb).emb j from rfl, e1]; omega))
    rw [show (R1rect k inb).toLoadRect.idx x = (R1rect k inb).emb x from rfl, View.canon_cons_emb, hu, R1piece,
      if_pos (by rw [e1]; omega)]
  · have h0 : (y 0).val < 32 := (y 0).isLt
    have hne : (y 1).val ≠ k := fun e => hm (Rect.mem_set_unit.mpr (Fin.forall_fin_two.mpr
      ⟨⟨Nat.zero_le _, by show (y 0).val < 0 + 32; omega⟩,
        ⟨by show k ≤ (y 1).val; omega, by show (y 1).val < k + 1; omega⟩⟩))
    refine (View.canon_cons_of_not_mem (⟨R1rect k inb, _⟩ : View.Piece (Elt Ideal) S32x32 .f32) L hm).trans ((h y).trans ?_)
    by_cases hlt : (y 1).val < k
    · rw [if_pos hlt, if_pos (by omega)]
    · rw [if_neg hlt, if_neg (by omega)]

end Column

theorem R1hz3 : (![0, 0, 0] : Fin 3 → Nat) = fun _ => 0 := funext fun a => by fin_cases a <;> rfl
theorem R1hz2 : (![0, 0] : Fin 2 → Nat) = fun _ => 0 := funext fun a => by fin_cases a <;> rfl

section Region
variable (c : Dev nD) (i : grid1.Coords) (arg1 : Memref sig .tc .vmem S32x32x1024 .f32) (harg1 : arg1.IsWhole)
  (arg2 : Memref sig .tc .vmem S32x1 .f32) (harg2 : arg2.IsWhole) (arg3 : Memref sig .tc .vmem S32x1 .f32) (harg3 : arg3.IsWhole)
  (arg4 : Memref sig .tc .vmem S32x32 .f32) (harg4 : arg4.IsWhole)

theorem R1out_B (hc0 : ¬cond1_0 i) (x0 : Vec Ideal S32x32x1024 .f32) (x1 x2 : Vec Ideal S32x1 .f32) (xo3 : Vec Ideal S32x32 .f32) :
    out1_B_3 c i arg1 harg1 arg2 harg2 arg3 harg3 arg4 harg4 hc0 x0 x1 x2 xo3 = R1G (k1_pay2 x0 x1 x2) xo3 := by
  unfold out1_B_3
  rw [View.read_writes_junk_eq_canon]
  funext j
  refine View.canon_apply_of_pieces _ _ ?_ j (cover1_B_3 _ _ _ _ _ _ _ _ _ _ _ _ _ _ _ j)
  unfold kernelRun1_B
  sl_unfold_words
  simp only [View.readAt_eq_ld, harg1.read_unread, harg2.read_unread, harg3.read_unread, harg4.read_unread,
    View.ld_unit_zero (S := S32x32x1024) R1hz3, View.ld_unit_zero (S := S32x1) R1hz2,
    List.mem_cons, List.not_mem_nil, or_false, forall_eq_or_imp, forall_eq]
  and_intros <;> exact fun x => R1piece _ _ _ _ x

theorem R1out_A (hc0 : cond1_0 i) (x0 : Vec Ideal S32x32x1024 .f32) (x1 x2 : Vec Ideal S32x1 .f32) :
    out1_A_3 c i arg1 harg1 arg2 harg2 arg3 harg3 arg4 harg4 hc0 x0 x1 x2 = R1G (k1_pay2 x0 x1 x2) (k1_pay1 (F := Ideal)) := by
  unfold out1_A_3
  rw [View.read_writes_junk_eq_canon]
  refine funext fun j => ((?_ : ∀ y, _ = if (y 1).val < 32 then _ else k1_pay1 (F := Ideal) y) j).trans (if_pos (j 1).isLt)
  unfold kernelRun1_A
  sl_unfold_words
  simp only [View.readAt_eq_ld, harg1.read_unread, harg2.read_unread, harg3.read_unread,
    View.ld_unit_zero (S := S32x32x1024) R1hz3, View.ld_unit_zero (S := S32x1) R1hz2]
  iterate 32 refine R1stepA _ _ _ _ _ _ ?_
  exact fun y => (congrFun (View.canon_unit_zero R1hz2 _ _) y).trans (if_neg (Nat.not_lt_zero _)).symm

end Region

end Cert.KernelIdeal.Hand

end
-- ==== Proof.LibTileSums.lean ====
import Idealize.ShloMosaic.PureOps.Ideal
import Mathlib.Logic.Equiv.Fin.Basic
import Mathlib.Data.Fintype.BigOperators
import Mathlib.Algebra.BigOperators.Fin

namespace Cert.LibTileSums

open scoped BigOperators

theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

-- A sum over A·B positions, tile by tile: position i·B + r is entry r of tile i.
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

end Cert.LibTileSums
-- ==== Proof.BinsBridge.lean ====
import proofs.«104984_j16939351016189_1_alg».proof.Proof.Gen.KernelIdeal.Skeleton
import proofs.«104984_j16939351016189_1_alg».proof.Proof.RefStages
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.ShloMosaic.ValueIdx

variable [Cert.KernelIdeal.Facts] [Cert.ReferenceIdeal.Facts]

theorem BBcol {α : Type} (u : S32x1.Idx → α) (b : Fin 32) (r : Fin 32) (w : Fin 1024) :
    broadcastTo S32x32x1024 (shapeCast S32x1x1 u shapeCasts_S32x1_S32x1x1) broadcasts_S32x1x1_S32x32x1024 (ix3 b r w) = u (ix2 b (0 : Fin 1)) := by
  have hb : b.val < 32 := b.isLt
  refine (broadcastTo_apply _ _ (ix3 b r w) (ix3 b (0 : Fin 1) (0 : Fin 1)) (fun a => match a with
    | ⟨0, _⟩ => by show b.val = if (32 : Nat) = 1 then 0 else b.val; rfl
    | ⟨1, _⟩ => by show (0 : Nat) = if (1 : Nat) = 1 then 0 else r.val; rfl
    | ⟨2, _⟩ => by show (0 : Nat) = if (1 : Nat) = 1 then 0 else w.val; rfl)).trans ?_
  exact shapeCast_apply _ _ (ix3 b (0 : Fin 1) (0 : Fin 1)) (ix2 b (0 : Fin 1)) (by
    rw [Shape.rowMajor_val_two, Shape.rowMajor_val_three]
    show b.val * 1 + 0 = (b.val * 1 + 0) * 1 + 0
    omega)

theorem BBrefcol {α : Type} (u : Cert.ReferenceIdeal.S32x1.Idx → α) (b : Fin 32) (p : Fin 1048576) :
    broadcastInDim Cert.ReferenceIdeal.S32x1048576 ![0, 1] Cert.ReferenceIdeal.Facts₀.bcast_S32x1_S32x1048576_0_1 u (ix2 b p) = u (ix2 b (0 : Fin 1)) :=
  broadcastInDim_apply _ _ u (ix2 b p) (ix2 b (0 : Fin 1)) (fun a => match a with
    | ⟨0, _⟩ => by show b.val = if (32 : Nat) = 1 then 0 else b.val; rfl
    | ⟨1, _⟩ => by show (0 : Nat) = if (1 : Nat) = 1 then 0 else p.val; rfl)

theorem BBflat (x4 : (⟨S32x1x1024x1024, .f32⟩ : BufTy).Contents (Elt Ideal)) (b : Fin 32) (ρ : Fin 1024) (w : Fin 1024)
    (hp : 1024 * ρ.val + w.val < 1048576) :
    Cert.ReferenceIdeal.Stages.flat (F := Ideal) x4 (ix2 b ⟨1024 * ρ.val + w.val, hp⟩)
      = shapeCast S32x1024x1024 x4 shapeCasts_S32x1x1024x1024_S32x1024x1024 (ix3 b ρ w) := by
  have hb : b.val < 32 := b.isLt
  have hρ : ρ.val < 1024 := ρ.isLt
  have hw : w.val < 1024 := w.isLt
  unfold Cert.ReferenceIdeal.Stages.flat
  refine (shapeCast_apply _ _ (ix2 b (⟨1024 * ρ.val + w.val, hp⟩ : Fin 1048576)) (ix4 b (0 : Fin 1) ρ w) ?_).trans
    (shapeCast_apply _ _ (ix3 b ρ w) (ix4 b (0 : Fin 1) ρ w) ?_).symm
  · rw [Shape.rowMajor_val_four, Shape.rowMajor_val_two]
    show ((b.val * 1 + 0) * 1024 + ρ.val) * 1024 + w.val = b.val * 1048576 + (1024 * ρ.val + w.val)
    omega
  · rw [Shape.rowMajor_val_four, Shape.rowMajor_val_three]
    show ((b.val * 1 + 0) * 1024 + ρ.val) * 1024 + w.val = (b.val * 1024 + ρ.val) * 1024 + w.val
    omega

-- Tile t holds rows 32t … 32t+31 of every image: the kernel's bin at (b, r, w) and the reference's at flat position 1024·(32t+r)+w are the bin of one entry with one pair of extremes.
theorem bins_bridge (x4 : (⟨S32x1x1024x1024, .f32⟩ : BufTy).Contents (Elt Ideal)) (l h : Vec Ideal S32x1 .f32) (t : Fin 32) (v3 : Vec Ideal S32x32x1024 .f32)
    (hv3 : ∀ (b : Fin 32) (r : Fin 32) (w : Fin 1024), v3 (ValueIdx.ix3 b r w) = shapeCast S32x1024x1024 x4 shapeCasts_S32x1x1024x1024_S32x1024x1024 (ValueIdx.ix3 b ⟨32 * t.val + r.val, by omega⟩ w))
    (b : Fin 32) (r : Fin 32) (w : Fin 1024) :
    k1_pay2 (F := Ideal) v3 l h (ValueIdx.ix3 b r w) = Cert.ReferenceIdeal.Stages.bins (F := Ideal) x4 l h (ValueIdx.ix2 b ⟨1024 * (32 * t.val + r.val) + w.val, by omega⟩) := by
  unfold k1_pay2 Cert.ReferenceIdeal.Stages.bins Cert.ReferenceIdeal.Stages.safe
  simp only [minsi, maxsi, fptosi, floor, Host.floor, mulf, divf, Host.divf, subf]
  rw [BBcol, BBcol, shapeCast_self, shapeCast_self, BBrefcol, BBrefcol, hv3,
    ← BBflat x4 b ⟨32 * t.val + r.val, by omega⟩ w (by have := t.isLt; have := r.isLt; have := w.isLt; show 1024 * (32 * t.val + r.val) + w.val < 1048576; omega)]
  simp only [select, cmpf, subf, shapeCast_self]
  rfl

end Cert.KernelIdeal.Hand

end
-- ==== Proof.R1Final.lean ====
import proofs.«104984_j16939351016189_1_alg».proof.Proof.R1
import Idealize.ShloMosaic.Lib.Pipeline.Value

noncomputable section

namespace Cert.KernelIdeal.Hand

open Cert.KernelIdeal Cert.KernelIdeal.Gen
open Idealize.ShloMosaic Idealize.ShloMosaic.TcCoe Idealize.SL.Sem

variable {F : FTy → Type} [FloatOps F]

variable (V : (c : Dev nD) → (b : Ref sig .tc) → Buf (Elt F) ((c : Thread nD τ).loc b))

abbrev R1t31 : Fin cfg1.N := ⟨31, by rw [show cfg1.N = 32 from N_1]; decide⟩

abbrev R1res (c : Dev nD) : Buf (Elt F) ((c : Thread nD τ).loc main_v2) := outsAt1 V c 31 R1t31.isLt

theorem R1off3 : (fun a => win1_3.index R1t31 a * main_v2.ty.shape.size a) = fun _ => 0 :=
  funext fun a => by fin_cases a <;> decide +kernel

theorem R1flushed3 (c : Dev nD) (t : Fin cfg1.N) (hf : (cfg1.win 3).flush t = true) :
    (dat1 V c).flushed 3 t = ((cfg1.win 3).blk t).view.read (Elt F) (R1res V c) := by
  have hN : cfg1.N = 32 := N_1
  have h3 : t.val = 31 := by have := (flush1_3 t).mp hf; have := t.isLt; omega
  obtain rfl : t = R1t31 := Fin.ext h3
  show (cfg1.win 3).cut (grid1.coords R1t31) ((dat1 V c).after 3 R1t31) = _
  rw [after1_3]
  exact (Memref.read_access_unit_zero (Elt F) main_v2 R1off3 (fun a => by rw [congrFun R1off3 a]; simp) (R1res V c)).symm

-- The counts are written back at the last point only, whole: the array ends at what that point left.
theorem R1final (c : Dev nD) : (dat1 V c).arrAt 3 cfg1.N = outsAt1 V c 31 R1t31.isLt :=
  (dat1 V c).arrAt_eq_of_cover 3 (R1res V c) (R1flushed3 V c) fun i =>
    ⟨R1t31, (flush1_3 R1t31).mpr rfl, by
      show i ∈ ((View.whole main_v2).slice (win1_3.rect R1t31)).set
      rw [View.set_slice_whole]
      exact View.mem_set_unit_zero R1off3 _ i⟩

theorem R1iblk0_apply (c : Dev nD) (t : Fin cfg1.N) (j : S32x32x1024.Idx) (k : S32x1024x1024.Idx)
    (h0 : (k 0).val = (j 0).val) (h1 : (k 1).val = 32 * t.val + (j 1).val) (h2 : (k 2).val = (j 2).val) :
    (iblk1 V c 0 t : Vec F S32x32x1024 .f32) j = (V c main_v0 : Vec F S32x1024x1024 .f32) k := by
  have hi : win1_0.index t 0 = 0 ∧ win1_0.index t 1 = t.val ∧ win1_0.index t 2 = 0 :=
    (by decide +kernel : ∀ t : Fin grid1.N, win1_0.index t 0 = 0 ∧ win1_0.index t 1 = t.val ∧ win1_0.index t 2 = 0) t
  unfold iblk1
  rw [View.read_apply]
  show V c main_v0 _ = V c main_v0 _
  congr 1
  funext a
  apply Fin.ext
  match a with
  | ⟨0, _⟩ => show win1_0.index t 0 * 32 + 1 * (j 0).val = (k 0).val; rw [hi.1, h0]; omega
  | ⟨1, _⟩ => show win1_0.index t 1 * 32 + 1 * (j 1).val = (k 1).val; rw [hi.2.1, h1]; omega
  | ⟨2, _⟩ => show win1_0.index t 2 * 1024 + 1 * (j 2).val = (k 2).val; rw [hi.2.2, h2]; omega

theorem R1iblk1_eq (c : Dev nD) (t : Fin cfg1.N) :
    (iblk1 V c 1 t : Vec F S32x1 .f32) = (V c main_v1_0 : Vec F S32x1 .f32) := by
  have hz := (by decide +kernel : ∀ t : Fin grid1.N, (fun a => win1_1.index t a * main_v1_0.ty.shape.size a) = fun _ => 0) t
  exact Memref.read_access_unit_zero (Elt F) main_v1_0 hz (fun a => by rw [congrFun hz a]; simp) (V c main_v1_0)

theorem R1iblk2_eq (c : Dev nD) (t : Fin cfg1.N) :
    (iblk1 V c 2 t : Vec F S32x1 .f32) = (V c main_v1_1 : Vec F S32x1 .f32) := by
  have hz := (by decide +kernel : ∀ t : Fin grid1.N, (fun a => win1_2.index t a * main_v1_1.ty.shape.size a) = fun _ => 0) t
  exact Memref.read_access_unit_zero (Elt F) main_v1_1 hz (fun a => by rw [congrFun hz a]; simp) (V c main_v1_1)

end Cert.KernelIdeal.Hand

end
-- ==== Proof.Val1S.lean ====
import proofs.«104984_j16939351016189_1_alg».proof.Proof.Val1K
import proofs.«104984_j16939351016189_1_alg».proof.Proof.LibTileSums
import proofs.«104984_j16939351016189_1_alg».proof.Proof.BinsBridge
import proofs.«104984_j16939351016189_1_alg».proof.Proof.R1Final
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem

variable [Cert.KernelIdeal.Facts] [Cert.ReferenceIdeal.Facts]

variable (V : (c : Dev nD) → (b : Ref sig .tc) → Buf (Elt Ideal) ((c : Thread nD τ).loc b))

def R1add (c : Dev nD) (t : Fin cfg1.N) (j : S32x32.Idx) : EReal :=
  ∑ r : Fin 32, ∑ w : Fin 1024,
    R1ind (k1_pay2 (F := Ideal) (iblk1 V c 0 t) (iblk1 V c 1 t) (iblk1 V c 2 t)
      (ix3 (n0 := 32) (n1 := 32) (n2 := 1024) (j 0) r w)) (BitVec.ofNat 32 (j 1).val)

theorem R1zero_apply (j : S32x32.Idx) : k1_pay1 (F := Ideal) j = 0 := Ideal.ofBits_zero_f32

-- The counts after point n are the sum over the points so far of what each adds.
theorem R1outsAt_eq (c : Dev nD) (j : S32x32.Idx) : ∀ (n : ℕ) (h : n < cfg1.N),
    outsAt1 V c n h j = ∑ t : Fin (n + 1), R1add V c ⟨t.val, lt_of_lt_of_le t.isLt (Nat.succ_le_of_lt h)⟩ j
  | 0, h => by
    rw [outsAt1_A V c ⟨0, h⟩ rfl, R1out_A]
    show k1_pay1 (F := Ideal) j + R1add V c ⟨0, h⟩ j = _
    rw [R1zero_apply, zero_add, Fin.sum_univ_one]
    rfl
  | n + 1, h => by
    have hN : cfg1.N = 32 := N_1
    have hB : ¬(⟨n + 1, h⟩ : Fin cfg1.N).val % 32 = 0 := by dsimp only; omega
    rw [outsAt1_B V c ⟨n + 1, h⟩ hB, R1out_B]
    show outsAt1 V c n _ j + R1add V c ⟨n + 1, h⟩ j = _
    rw [R1outsAt_eq c j n]
    conv_rhs => rw [Fin.sum_univ_castSucc]
    rfl

theorem R1ind_eq (a kw : BitVec 32) : R1ind a kw = if a = kw then (1 : EReal) else 0 := by
  have e : ∀ b : Bool, ((BitVec.ofBool b).setWidth 32).toInt = if b then 1 else 0 := by decide
  unfold R1ind
  show ((((BitVec.ofBool (a == kw)).setWidth 32).toInt : ℝ) : EReal) = _
  rw [e]
  by_cases h : a = kw <;> simp [h]

theorem R1sum_tiles (f : Fin 1048576 → EReal) :
    ∑ t : Fin 32, ∑ r : Fin 32, ∑ w : Fin 1024,
        f ⟨1024 * (32 * t.val + r.val) + w.val, by have := t.isLt; have := r.isLt; have := w.isLt; omega⟩
      = ∑ p : Fin 1048576, f p := by
  rw [← Cert.LibTileSums.sum_tiles (A := 1024) (B := 1024) (n := 1048576) (by norm_num) f]
  rw [← Cert.LibTileSums.sum_tiles (A := 32) (B := 32) (n := 1024) (by norm_num)
    (fun ρ : Fin 1024 => ∑ w : Fin 1024, f ⟨ρ.val * 1024 + w.val, Cert.LibTileSums.tile_lt (by norm_num) ρ w⟩)]
  refine Finset.sum_congr rfl fun t _ => Finset.sum_congr rfl fun r _ => Finset.sum_congr rfl fun w _ => ?_
  exact congrArg f (Fin.ext (by show 1024 * (32 * t.val + r.val) + w.val = (t.val * 32 + r.val) * 1024 + w.val; omega))

abbrev R1pt (t : Fin 32) : Fin cfg1.N := ⟨t.val, by rw [show cfg1.N = 32 from N_1]; exact t.isLt⟩

theorem R1add_eq (c : Dev nD) (x4 : (⟨S32x1x1024x1024, .f32⟩ : BufTy).Contents (Elt Ideal))
    (hx : V c main_v0 = shapeCast S32x1024x1024 x4 shapeCasts_S32x1x1024x1024_S32x1024x1024) (t b k : Fin 32) :
    R1add V c (R1pt t) (ix2 (n0 := 32) (n1 := 32) b k)
      = ∑ r : Fin 32, ∑ w : Fin 1024,
          (if Cert.ReferenceIdeal.Stages.bins (F := Ideal) x4 (V c main_v1_0) (V c main_v1_1)
                (ix2 b ⟨1024 * (32 * t.val + r.val) + w.val, by have := t.isLt; have := r.isLt; have := w.isLt; omega⟩)
              = BitVec.ofNat 32 k.val then (1 : EReal) else 0) := by
  unfold R1add
  refine Finset.sum_congr rfl fun r _ => Finset.sum_congr rfl fun w _ => ?_
  rw [R1ind_eq]
  show (if k1_pay2 (F := Ideal) (iblk1 V c 0 (R1pt t)) (iblk1 V c 1 (R1pt t)) (iblk1 V c 2 (R1pt t))
      (ix3 (n0 := 32) (n1 := 32) (n2 := 1024) b r w) = BitVec.ofNat 32 k.val then (1 : EReal) else 0) = _
  rw [R1iblk1_eq V c (R1pt t), R1iblk2_eq V c (R1pt t)]
  rw [bins_bridge x4 (V c main_v1_0) (V c main_v1_1) t (iblk1 V c 0 (R1pt t)) (fun b' r' w' =>
    (R1iblk0_apply V c (R1pt t) (ix3 b' r' w') (ix3 b' ⟨32 * t.val + r'.val, by have := t.isLt; have := r'.isLt; omega⟩ w') rfl rfl rfl).trans
      (by rw [hx])) b r w]

-- Summed over the 32 tiles, the per-tile counts are the count over the image's 1048576 entries.
theorem val1_counts_sum (c : Dev nD) (x4 : (⟨S32x1x1024x1024, .f32⟩ : BufTy).Contents (Elt Ideal))
    (hx : V c main_v0 = shapeCast S32x1024x1024 x4 shapeCasts_S32x1x1024x1024_S32x1024x1024) (b k : Fin 32) :
    (dat1 V c).arrAt 3 cfg1.N (ix2 (n0 := 32) (n1 := 32) b k)
      = ∑ p : Fin 1048576,
          (if Cert.ReferenceIdeal.Stages.bins (F := Ideal) x4 (V c main_v1_0) (V c main_v1_1) (ix2 b p)
              = BitVec.ofNat 32 k.val then (1 : EReal) else 0) := by
  rw [R1final V c, R1outsAt_eq V c (ix2 b k) 31 R1t31.isLt, ← R1sum_tiles]
  show ∑ t : Fin 32, R1add V c (R1pt t) (ix2 b k) = _
  exact Finset.sum_congr rfl fun t _ => R1add_eq V c x4 hx t b k

end Cert.KernelIdeal.Hand

end
-- ==== Proof.LibIndexMaps.lean ====
import Idealize.ShloMosaic.PureOps.Ideal
import Idealize.ShloMosaic.Lib.ValueIdx

noncomputable section

namespace Cert.Gcn.IndexMaps

open Idealize.ShloMosaic Idealize.ShloMosaic.ValueIdx

theorem mem_kept {s : Shape} (axes : List (Fin s.rank)) (a : Fin s.rank) : a ∈ s.kept axes ↔ a ∉ axes := by
  simp [Shape.kept, List.mem_filter, List.mem_finRange]

-- A rank-1 index is its one coordinate.
theorem sum_idx1 {M : Type*} [AddCommMonoid M] {n : ℕ} (f : (⟨1, ![n]⟩ : Shape).Idx → M) :
    ∑ i, f i = ∑ a : Fin n, f (ix1 a) :=
  (Equiv.sum_comp (⟨fun i => i 0, ix1, fun i => (eq_ix1 i).symm, fun _ => rfl⟩ : (⟨1, ![n]⟩ : Shape).Idx ≃ Fin n).symm f).symm

-- Update p of an [e × 1] index column reads its one start-index component at (p, 0).
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    exact Fin.ext (congrArg (fun X : Fin 1 => (j X).val) (Subsingleton.elim _ 0))
  | ⟨1, h1⟩ =>
    have h2 : (d.siIdx j c ⟨1, h1⟩).val < 1 := (d.siIdx j c ⟨1, h1⟩).isLt
    exact Fin.ext (by show (d.siIdx j c ⟨1, h1⟩).val = 0; omega)

-- The index word is read signed and not clamped: update p lands on element r exactly when it reads r.
theorem scatter1_resultIdx_iff {n e w : ℕ} (d : ScatterDims ⟨1, ![n]⟩ ⟨2, ![e, 1]⟩ ⟨1, ![e]⟩)
    (hiw : d.insertedWindowDims = [0]) (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hstart : d.start j idx 0 = (idx (ix2 (j 0) (0 : Fin 1))).toInt := by
    unfold ScatterDims.start
    rw [dif_pos (by rw [hsd]; exact List.mem_singleton.mpr rfl), scatter1_siIdx d hivd]
  have hwin : d.window j 0 = 0 := by
    unfold ScatterDims.window
    rw [dif_neg (by rw [ScatterDims.sKept, mem_kept, hiw]; simp)]
  have hlt : (i 0).val < n := (i 0).isLt
  have all0 : ∀ {P : Fin 1 → Prop}, P 0 → ∀ a, P a := fun h a => Subsingleton.elim 0 a ▸ h
  unfold ScatterDims.resultIdx?
  split_ifs with h
  · have h0 := h 0
    rw [hstart, hwin] at h0
    rw [Option.some.injEq]
    refine ⟨fun hf => ?_, fun he => funext (all0 (Fin.ext ?_))⟩
    · have hv := congrArg Fin.val (congrFun hf 0)
      simp only [hstart, hwin] at hv
      omega
    · simp only [hstart, hwin]
      omega
  · refine ⟨fun hh => (nomatch hh), fun he => (h (all0 ?_)).elim⟩
    rw [hstart, hwin, he]
    show (0 : Int) ≤ ((i 0).val : ℕ) + ((0 : ℕ) : Int) ∧ (((i 0).val : ℕ) : Int) + ((0 : ℕ) : Int) < (n : ℕ)
    omega

-- Element r of the accumulating scatter: the operand's element plus the updates whose index word reads r.
theorem hostScatterAdd1_apply {n e w : ℕ} (d : ScatterDims ⟨1, ![n]⟩ ⟨2, ![e, 1]⟩ ⟨1, ![e]⟩)
    (hiw : d.insertedWindowDims = [0]) (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  rw [Finset.sum_filter, sum_idx1]
  exact congrArg _ (Finset.sum_congr rfl fun p _ => if_congr (scatter1_resultIdx_iff d hiw hsd hivd idx (ix1 p) (ix1 r)) rfl rfl)

end Cert.Gcn.IndexMaps

end
-- ==== Proof.RefCounts.lean ====
import proofs.«104984_j16939351016189_1_alg».proof.Proof.RefStages
import proofs.«104984_j16939351016189_1_alg».proof.Proof.LibIndexMaps
import Idealize.ShloMosaic.PureOps.Ideal.Laws
import Idealize.ShloMosaic.Lib.Pipeline.Value
import Idealize.ShloMosaic.Lib.StableHlo.Predicate

noncomputable section

namespace Cert.ReferenceIdeal.RefCounts

open Idealize.ShloMosaic Idealize.ShloMosaic.ValueIdx
open Cert.ReferenceIdeal Cert.ReferenceIdeal.Stages
open scoped BigOperators

variable [Cert.ReferenceIdeal.Facts]
open Facts₀ Facts

theorem clip_le (t : BitVec 32) : (IntOp.minsi 31#32 (IntOp.maxsi 0#32 t)).toNat ≤ 31 := by
  unfold IntOp.minsi IntOp.maxsi
  have ht := t.isLt
  by_cases h1 : t.slt 0#32 = true
  · rw [if_pos h1, if_neg (by decide)]; decide
  · by_cases h2 : (31#32 : BitVec 32).slt t = true
    · rw [if_neg h1, if_pos h2]; decide
    · rw [if_neg h1, if_neg h2]
      simp only [BitVec.slt, decide_eq_true_eq, BitVec.toInt_eq_toNat_cond, show (0#32 : BitVec 32).toNat = 0 from rfl,
        show (31#32 : BitVec 32).toNat = 31 from rfl] at h1 h2
      split_ifs at h1 h2 <;> omega

theorem bins_le (x : TF Ideal S32x1x1024x1024) (l h : TF Ideal S32x1) (j : S32x1048576.Idx) :
    (bins (F := Ideal) x l h j).toNat ≤ 31 := clip_le _

def slot2 (x : TF Ideal S32x1x1024x1024) (l h : TF Ideal S32x1) : TI Ideal S32x1048576 :=
  addi (bins x l h)
    (broadcastInDim S32x1048576 ![0, 1] bcast_S32x1_S32x1048576_0_1
      (muli (broadcastInDim S32x1 ![0] bcast_S32_S32x1_0 (iotaInDim S32 32 0))
        (broadcastInDim S32x1 ![] bcast_S_S32x1 (constantI S_ 32 32#32))))

theorem slot2_apply (x : TF Ideal S32x1x1024x1024) (l h : TF Ideal S32x1) (b : Fin 32) (p : Fin 1048576) :
    slot2 x l h (ix2 b p) = bins (F := Ideal) x l h (ix2 b p) + BitVec.ofNat 32 b.val * 32#32 := by
  show IntOp.addi (bins x l h (ix2 b p)) _ = _
  rw [broadcastInDim_apply _ _ _ (ix2 b p) (ix2 b (0 : Fin 1)) (by intro a; match a with | ⟨0, _⟩ => rfl | ⟨1, _⟩ => rfl)]
  show IntOp.addi _ (IntOp.muli _ _) = _
  rw [broadcastInDim_apply _ _ _ (ix2 b (0 : Fin 1)) (ix1 b) (by intro a; match a with | ⟨0, _⟩ => rfl)]
  rfl

theorem slot2_toNat (x : TF Ideal S32x1x1024x1024) (l h : TF Ideal S32x1) (b : Fin 32) (p : Fin 1048576) :
    (slot2 x l h (ix2 b p)).toNat = (bins (F := Ideal) x l h (ix2 b p)).toNat + 32 * b.val := by
  have hb := b.isLt
  have hv := bins_le x l h (ix2 b p)
  rw [slot2_apply, BitVec.toNat_add, BitVec.toNat_mul, BitVec.toNat_ofNat]
  show (_ + (b.val % 2 ^ 32) * 32 % 2 ^ 32) % 2 ^ 32 = _
  omega

theorem slots_apply (x : TF Ideal S32x1x1024x1024) (l h : TF Ideal S32x1) (q : Fin 33554432) :
    slots (F := Ideal) x l h (ix2 q (0 : Fin 1))
      = slot2 x l h (Shape.reshapeEquiv shapeCasts_S32x1048576_S33554432 (ix1 q)) := by
  unfold slots
  dsimp only
  rw [broadcastInDim_apply _ _ _ (ix2 q (0 : Fin 1)) (ix1 q) (by intro a; match a with | ⟨0, _⟩ => rfl)]
  show Scalar.select (IntOp.cmpi .slt (slot2 x l h (Shape.reshapeEquiv shapeCasts_S32x1048576_S33554432 (ix1 q))) 0#32)
      (IntOp.addi (slot2 x l h (Shape.reshapeEquiv shapeCasts_S32x1048576_S33554432 (ix1 q))) 1024#32)
      (slot2 x l h (Shape.reshapeEquiv shapeCasts_S32x1048576_S33554432 (ix1 q))) = _
  generalize Shape.reshapeEquiv shapeCasts_S32x1048576_S33554432 (ix1 q) = i
  obtain ⟨b', p, rfl⟩ : ∃ (b' : Fin 32) (p : Fin 1048576), i = ix2 b' p := ⟨i 0, i 1, eq_ix2 i⟩
  have hn := slot2_toNat x l h b' p
  have hv := bins_le x l h (ix2 b' p)
  have hb := b'.isLt
  have hlt : (slot2 x l h (ix2 b' p)).toNat < 2 ^ 31 := by omega
  have z : (0#32 : BitVec 32).toNat = 0 := rfl
  have hc : IntOp.cmpi .slt (slot2 x l h (ix2 b' p)) 0#32 = 0#1 :=
    eq_zero_of_ne_one fun hh => by
      have := (StableHlo.Predicate.slt_iff_toNat hlt (by decide)).mp hh
      omega
  rw [hc, select_zero]

theorem ofBits_one_f32 : Ideal.ofBits .f32 0x3F800000#32 = 1 := by
  simp [Ideal.ofBits, Ideal.ieee, -EReal.coe_mul]; norm_num

theorem scatterAdd_eq {s si u : Shape} {w : Nat} {φ : FTy} (d : ScatterDims s si u) (v : FVec Ideal s φ) (idx : IVec si w)
    (upd : FVec Ideal u φ) : Host.scatterAdd (F := Ideal) d v idx upd = Ideal.hostScatterAdd d v idx upd := rfl

theorem scatter_count (idx : IVec S33554432x1 32) (r : Fin 1024) :
    Host.scatterAdd (F := Ideal) scatter_S1024_S33554432x1_S33554432_n_0_0_1
        (broadcastInDim S1024 ![] bcast_S_S1024 (constant (F := Ideal) S_ .f32 0x00000000#32))
        idx
        (broadcastInDim S33554432 ![] bcast_S_S33554432 (constant (F := Ideal) S_ .f32 0x3F800000#32))
        (ix1 r)
      = ∑ q : Fin 33554432, if (idx (ix2 q (0 : Fin 1))).toInt = ((r.val : ℕ) : Int) then (1 : EReal) else 0 := by
  rw [scatterAdd_eq, Cert.Gcn.IndexMaps.hostScatterAdd1_apply _ rfl rfl rfl,
    StableHlo.Predicate.bcast_scalar _ h_S_, constant_apply, Ideal.ofBits_zero_f32, zero_add]
  refine Finset.sum_congr rfl (fun p _ => ?_)
  rw [StableHlo.Predicate.bcast_scalar _ h_S_, constant_apply, ofBits_one_f32]

-- A sum over the flat pixel positions is the sum over images and pixels of an image.
theorem sum_flat (g : S32x1048576.Idx → EReal) :
    ∑ q : Fin 33554432, g (Shape.reshapeEquiv shapeCasts_S32x1048576_S33554432 (ix1 q)) = ∑ b : Fin 32, ∑ p : Fin 1048576, g (ix2 b p) := by
  rw [← Cert.Gcn.IndexMaps.sum_idx1 fun j => g (Shape.reshapeEquiv shapeCasts_S32x1048576_S33554432 j),
    Equiv.sum_comp (Shape.reshapeEquiv shapeCasts_S32x1048576_S33554432) g, sum_idx2]

-- A slot 32·b' + bin with bin ≤ 31 is 32·b + k exactly when b' = b and bin = k: entry (b, k) counts the pixels of image b in bin k.
theorem counts_apply (x : TF Ideal S32x1x1024x1024) (l h : TF Ideal S32x1) (b k : Fin 32) :
    counts (F := Ideal) x l h (ix2 b k)
      = ∑ p : Fin 1048576, if bins (F := Ideal) x l h (ix2 b p) = BitVec.ofNat 32 k.val then (1 : EReal) else 0 := by
  have hb := b.isLt
  have hk := k.isLt
  have hr : 32 * b.val + k.val < 1024 := by omega
  unfold counts
  rw [shapeCast_apply _ _ (ix2 b k) (ix1 (⟨32 * b.val + k.val, hr⟩ : Fin 1024)) (by
    rw [Shape.rowMajor_val_one, Shape.rowMajor_val_two]
    show 32 * b.val + k.val = b.val * 32 + k.val
    omega)]
  beta_reduce
  rw [scatter_count]
  simp only [slots_apply]
  rw [sum_flat fun i => if (slot2 x l h i).toInt = (((⟨32 * b.val + k.val, hr⟩ : Fin 1024).val : ℕ) : Int) then (1 : EReal) else 0]
  have key : ∀ (b' : Fin 32) (p : Fin 1048576),
      ((slot2 x l h (ix2 b' p)).toInt = (((⟨32 * b.val + k.val, hr⟩ : Fin 1024).val : ℕ) : Int))
        ↔ (b' = b ∧ bins (F := Ideal) x l h (ix2 b' p) = BitVec.ofNat 32 k.val) := by
    intro b' p
    have hn := slot2_toNat x l h b' p
    have hv := bins_le x l h (ix2 b' p)
    have hb' := b'.isLt
    have hlt : (slot2 x l h (ix2 b' p)).toNat < 2 ^ 31 := by omega
    rw [StableHlo.Predicate.toInt_eq_toNat_of_lt hlt]
    show ((slot2 x l h (ix2 b' p)).toNat : Int) = ((32 * b.val + k.val : ℕ) : Int) ↔ _
    rw [Int.natCast_inj, hn]
    constructor
    · intro he
      have hbb : b'.val = b.val := by omega
      refine ⟨Fin.ext hbb, BitVec.eq_of_toNat_eq ?_⟩
      rw [BitVec.toNat_ofNat]
      show _ = k.val % 2 ^ 32
      omega
    · rintro ⟨rfl, he⟩
      rw [he, BitVec.toNat_ofNat]
      show k.val % 2 ^ 32 + 32 * b'.val = 32 * b'.val + k.val
      omega
  rw [Finset.sum_eq_single b]
  · exact Finset.sum_congr rfl fun p _ => if_congr ((key b p).trans (and_iff_right rfl)) rfl rfl
  · exact fun b' _ hne => Finset.sum_eq_zero fun p _ => if_neg fun hh => hne ((key b' p).mp hh).1
  · exact fun hh => absurd (Finset.mem_univ b) hh

end Cert.ReferenceIdeal.RefCounts

end
-- ==== Proof.Val1.lean ====
import proofs.«104984_j16939351016189_1_alg».proof.Proof.Val1S
import proofs.«104984_j16939351016189_1_alg».proof.Proof.RefCounts

noncomputable section

namespace Cert.KernelIdeal.Hand

open Cert.KernelIdeal Cert.KernelIdeal.Gen
open Idealize.ShloMosaic Idealize.ShloMosaic.TcCoe Idealize.ShloMosaic.ValueIdx
open Idealize.SL.Sem

variable [Cert.KernelIdeal.Facts] [Cert.ReferenceIdeal.Facts]

variable (V : (c : Dev nD) → (b : Ref sig .tc) → Buf (Elt Ideal) ((c : Thread nD τ).loc b))

-- Entry (b, k) of both is the number of entries of image b whose bin is k.
theorem val1_counts (c : Dev nD) (x4 : (⟨S32x1x1024x1024, .f32⟩ : BufTy).Contents (Elt Ideal))
    (hx : V c main_v0 = shapeCast S32x1024x1024 x4 shapeCasts_S32x1x1024x1024_S32x1024x1024) :
    (dat1 V c).arrAt 3 cfg1.N = Cert.ReferenceIdeal.Stages.counts (F := Ideal) x4 (V c main_v1_0) (V c main_v1_1) := by
  funext (j : S32x32.Idx)
  obtain ⟨b, k, rfl⟩ : ∃ (b k : Fin 32), j = ix2 (n0 := 32) (n1 := 32) b k := ⟨j 0, j 1, eq_ix2 j⟩
  rw [val1_counts_sum V c x4 hx b k]
  exact (Cert.ReferenceIdeal.RefCounts.counts_apply x4 (V c main_v1_0) (V c main_v1_1) b k).symm

end Cert.KernelIdeal.Hand

end
-- ==== Proof.Val0.lean ====
import proofs.«104984_j16939351016189_1_alg».proof.Proof.R0
import proofs.«104984_j16939351016189_1_alg».proof.Proof.RefStages
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat)

variable {F : FTy → Type} [FloatOps F]

section Generic
variable (V : (c : Dev nD) → (b : Ref sig .tc) → Buf (Elt F) ((c : Thread nD τ).loc b))

theorem R0hz : (![0, 0] : Fin 2 → Nat) = fun _ => 0 := funext fun a => by fin_cases a <;> rfl
theorem R0hz3 : (![0, 0, 0] : Fin 3 → Nat) = fun _ => 0 := funext fun a => by fin_cases a <;> rfl

section Cases
variable (c : Dev nD) (i : grid0.Coords) (arg1 : Memref sig .tc .vmem S32x32x1024 .f32) (harg1 : arg1.IsWhole)
  (arg2 : Memref sig .tc .vmem S32x1 .f32) (harg2 : arg2.IsWhole) (arg3 : Memref sig .tc .vmem S32x1 .f32) (harg3 : arg3.IsWhole)
  (x0 : Vec F S32x32x1024 .f32)

-- At a later point the two outputs are the payloads of the previous outputs and the block;
theorem R0outB_eq (hc0 : ¬R0cond i) (xo1 xo2 : Vec F S32x1 .f32) :
    (R0outB1 c i arg1 harg1 arg2 harg2 arg3 harg3 hc0 x0 xo1 xo2, R0outB2 c i arg1 harg1 arg2 harg2 arg3 harg3 hc0 x0 xo1 xo2)
      = (k0_pay4 x0 xo1, k0_pay5 x0 xo2) := by
  unfold R0outB1 R0outB2
  rw [View.read_writes_eq_canon _ _ _ (R0coverB1 _ _ _ _ _ _ _ _ _ _ _ _),
    View.read_writes_eq_canon _ _ _ (R0coverB2 _ _ _ _ _ _ _ _ _ _ _ _)]
  unfold R0runB
  dsimp only
  simp only [View.canon_unit_zero (S := S32x1) R0hz, View.readAt_eq_ld, harg1.read_unread, harg2.read_unread, harg3.read_unread,
    View.ld_unit_zero (S := S32x1) R0hz, View.ld_unit_zero (S := S32x32x1024) R0hz3]

-- at the first point, of the reset values and the block.
theorem R0outA_eq (hc0 : R0cond i) :
    (R0outA1 c i arg1 harg1 arg2 harg2 arg3 harg3 hc0 x0, R0outA2 c i arg1 harg1 arg2 harg2 arg3 harg3 hc0 x0)
      = (k0_pay4 x0 (k0_pay1 (F := F)), k0_pay5 x0 (k0_pay2 (F := F))) := by
  unfold R0outA1 R0outA2
  rw [View.read_writes_eq_canon _ _ _ (R0coverA1 _ _ _ _ _ _ _ _ _ _),
    View.read_writes_eq_canon _ _ _ (R0coverA2 _ _ _ _ _ _ _ _ _ _)]
  unfold R0runA
  dsimp only
  sl_unfold_words
  simp only [View.canon_cons_unit_zero (S := S32x1) R0hz, View.readCov_unit_zero (S := S32x1) _ R0hz, View.readAt_eq_ld,
    harg1.read_unread, View.ld_unit_zero (S := S32x32x1024) R0hz3]

end Cases

/-- The running value after point `n`: `pay` of block 0 and `init`, then of block `n` and what came before. -/
def R0chain (pay : Vec F S32x32x1024 .f32 → Vec F S32x1 .f32 → Vec F S32x1 .f32) (init : Vec F S32x1 .f32) (c : Dev nD) :
    (n : ℕ) → n < cfg0.N → Vec F S32x1 .f32
  | 0, h => pay (iblk0 V c 0 ⟨0, h⟩) init
  | n + 1, h => pay (iblk0 V c 0 ⟨n + 1, h⟩) (R0chain pay init c n (Nat.lt_of_succ_lt h))

theorem R0outsAt_eq (c : Dev nD) : ∀ (n : ℕ) (h : n < cfg0.N),
    R0outsAt V c n h = (R0chain V k0_pay4 k0_pay1 c n h, R0chain V k0_pay5 k0_pay2 c n h)
  | 0, h => by rw [R0outsAt_A V c ⟨0, h⟩ rfl, R0outA_eq]; rfl
  | n + 1, h => by
    have hN : cfg0.N = 32 := N_0
    rw [R0outsAt_B V c ⟨n + 1, h⟩ (by dsimp only; omega), R0outB_eq]
    show (k0_pay4 _ (R0outsAt V c n _).1, k0_pay5 _ (R0outsAt V c n _).2) = _
    rw [R0outsAt_eq c n]; rfl

abbrev R0t31 : Fin cfg0.N := ⟨31, by decide⟩

theorem R0last (t : Fin cfg0.N) (h : t.val % 32 = 31) : t = R0t31 :=
  Fin.ext (by have hN : cfg0.N = 32 := N_0; have := t.isLt; show t.val = 31; omega)

theorem R0hz1 : (fun a => win0_1.index R0t31 a * main_v1_0.ty.shape.size a) = fun _ => 0 := funext fun a => by fin_cases a <;> decide +kernel
theorem R0hz2 : (fun a => win0_2.index R0t31 a * main_v1_1.ty.shape.size a) = fun _ => 0 := funext fun a => by fin_cases a <;> decide +kernel

-- Each result array ends as the running value after the last point.
theorem R0final (c : Dev nD) :
    (dat0 V c).arrAt 1 cfg0.N = ((R0outsAt V c 31 R0t31.isLt).1 : Buf (Elt F) ((c : Thread nD τ).loc main_v1_0)) ∧
    (dat0 V c).arrAt 2 cfg0.N = ((R0outsAt V c 31 R0t31.isLt).2 : Buf (Elt F) ((c : Thread nD τ).loc main_v1_1)) := by
  constructor <;> refine Dat.arrAt_eq_of_cover _ _ _ (fun t hf => ?_) fun i => ⟨R0t31, by decide +kernel, ?_⟩
  · obtain rfl := R0last t ((flush0_1 t).mp hf)
    exact (Memref.read_access_unit_zero (Elt F) main_v1_0 R0hz1 (fun a => by rw [congrFun R0hz1 a]; simp) _).symm
  · show i ∈ ((View.whole main_v1_0).slice (win0_1.rect R0t31)).set
    rw [View.set_slice_whole]; exact View.mem_set_unit_zero R0hz1 _ i
  · obtain rfl := R0last t ((flush0_2 t).mp hf)
    exact (Memref.read_access_unit_zero (Elt F) main_v1_1 R0hz2 (fun a => by rw [congrFun R0hz2 a]; simp) _).symm
  · show i ∈ ((View.whole main_v1_1).slice (win0_2.rect R0t31)).set
    rw [View.set_slice_whole]; exact View.mem_set_unit_zero R0hz2 _ i

theorem R0iblk_apply (c : Dev nD) (t : Fin cfg0.N) (j : S32x32x1024.Idx) (k : S32x1024x1024.Idx)
    (h0 : (k 0).val = (j 0).val) (h1 : (k 1).val = 32 * t.val + (j 1).val) (h2 : (k 2).val = (j 2).val) :
    (iblk0 V c 0 t : Vec F S32x32x1024 .f32) j = (V c main_v0 : Vec F S32x1024x1024 .f32) k := by
  have hi : win0_0.index t 0 = 0 ∧ win0_0.index t 1 = t.val ∧ win0_0.index t 2 = 0 :=
    (by decide +kernel : ∀ t : Fin grid0.N, win0_0.index t 0 = 0 ∧ win0_0.index t 1 = t.val ∧ win0_0.index t 2 = 0) t
  unfold iblk0
  rw [View.read_apply]
  show V c main_v0 _ = V c main_v0 _
  congr 1
  funext a
  apply Fin.ext
  match a with
  | ⟨0, _⟩ => show win0_0.index t 0 * 32 + 1 * (j 0).val = (k 0).val; rw [hi.1, h0]; omega
  | ⟨1, _⟩ => show win0_0.index t 1 * 32 + 1 * (j 1).val = (k 1).val; rw [hi.2.1, h1]; omega
  | ⟨2, _⟩ => show win0_0.index t 2 * 1024 + 1 * (j 2).val = (k 2).val; rw [hi.2.2, h2]; omega

end Generic

section IdealValues

local notation "𝕀" => Idealize.ShloMosaic.Ideal

theorem R0ofBits_top : FloatOps.ofBits (F := 𝕀) .f32 0x7F800000#32 = (⊤ : EReal) := by
  show Idealize.ShloMosaic.Ideal.ofBits .f32 0x7F800000#32 = ⊤
  simp [Idealize.ShloMosaic.Ideal.ofBits, Idealize.ShloMosaic.Ideal.ieee]
theorem R0ofBits_bot : FloatOps.ofBits (F := 𝕀) .f32 0xFF800000#32 = (⊥ : EReal) := by
  show Idealize.ShloMosaic.Ideal.ofBits .f32 0xFF800000#32 = ⊥
  simp [Idealize.ShloMosaic.Ideal.ofBits, Idealize.ShloMosaic.Ideal.ieee]

/-- A way of taking extremes: `r c v` reads "`c` bounds `v`"; `op` is the tightest bound of two values, `e` of none. -/
structure Ext where
  op : EReal → EReal → EReal
  e : EReal
  r : EReal → EReal → Prop
  comm : Std.Commutative op
  assoc : Std.Associative op
  hr : ∀ x y z, r x (op y z) ↔ r x y ∧ r x z
  he : ∀ c, r c e
  ext : ∀ a b, (∀ c, r c a ↔ r c b) → a = b

attribute [local instance] Ext.comm Ext.assoc

def Ext.lo : Ext where
  op := FloatOps.minimumf (F := 𝕀) (φ := .f32)
  e := FloatOps.ofBits (F := 𝕀) .f32 0x7F800000#32
  r c v := c ≤ v
  comm := inferInstance
  assoc := inferInstance
  hr _ _ _ := le_min_iff
  he _ := le_of_le_of_eq le_top R0ofBits_top.symm
  ext _ _ := eq_of_forall_le_iff

def Ext.hi : Ext where
  op := FloatOps.maximumf (F := 𝕀) (φ := .f32)
  e := FloatOps.ofBits (F := 𝕀) .f32 0xFF800000#32
  r c v := v ≤ c
  comm := inferInstance
  assoc := inferInstance
  hr _ _ _ := max_le_iff
  he _ := (le_of_eq R0ofBits_bot).trans bot_le
  ext _ _ := eq_of_forall_ge_iff

variable (E : Ext)

-- A fold of `op` from `e` has exactly the common bounds of the folded entries.
theorem Ext.fold_iff {s t : Shape} (drop : s.Idx → t.Idx) (x : s.Idx → EReal) (j : t.Idx) (c : EReal) :
    E.r c ((Finset.univ.filter fun i => drop i = j).fold E.op E.e x) ↔ ∀ i, drop i = j → E.r c (x i) := by
  rw [Finset.fold_op_rel_iff_and (fun {x y z} => E.hr x y z), and_iff_right (E.he c)]
  simp only [Finset.mem_filter, Finset.mem_univ, true_and]

theorem Ext.red_iff {s t : Shape} {axes : List (Fin s.rank)} (h : s.Reduces axes t) (x : s.Idx → EReal) (j : t.Idx) (c : EReal) :
    E.r c (reduceFold h E.op E.e x j) ↔ ∀ i, h.drop i = j → E.r c (x i) := by
  rw [reduceFold_eq_fold]; exact E.fold_iff _ x j c

def R0row (idx : S32x1.Idx) : S32.Idx := fun | ⟨0, _⟩ => ⟨(idx 0).val, (idx 0).isLt⟩

theorem R0row_iff (f : S32.Idx) (idx : S32x1.Idx) : f = R0row idx ↔ (f 0).val = (idx 0).val :=
  ⟨fun h => congrArg (fun g : S32.Idx => (g 0).val) h, fun h => funext fun | ⟨0, _⟩ => Fin.ext h⟩

theorem R0cast_row {α : Type} (v : S32.Idx → α) (idx : S32x1.Idx) : shapeCast S32x1 v shapeCasts_S32_S32x1 idx = v (R0row idx) :=
  shapeCast_apply v _ idx (R0row idx) (by
    rw [Shape.rowMajor_val_one, Shape.rowMajor_val_two]
    have h1 : (idx 1).val < 1 := (idx 1).isLt
    show (idx 0).val = (idx 0).val * 1 + (idx 1).val
    omega)

variable [Cert.KernelIdeal.Facts] [Cert.ReferenceIdeal.Facts]

theorem R0drop2 (j : S32x32x1024.Idx) (idx : S32x1.Idx) :
    reduces_S32x32_S32.drop (reduces_S32x32x1024_S32x32.drop j) = R0row idx ↔ (j 0).val = (idx 0).val := by
  rw [R0row_iff, Shape.Reduces.drop_apply_val_of_eq reduces_S32x32_S32 _ 0 0, Shape.Reduces.drop_apply_val_of_eq reduces_S32x32x1024_S32x32 _ 0 0]

/-- One step of the running value; the body's two payloads are its two cases, by unfolding. -/
def Ext.pay (x0 : Vec 𝕀 S32x32x1024 .f32) (prev : Vec 𝕀 S32x1 .f32) : Vec 𝕀 S32x1 .f32 := fun idx =>
  E.op (shapeCast S32x1 prev shapeCasts_S32x1_S32x1 idx)
    (shapeCast S32x1 (reduceFold reduces_S32x32_S32 E.op E.e (reduceFold reduces_S32x32x1024_S32x32 E.op E.e
      (shapeCast S32x32x1024 x0 shapeCasts_S32x32x1024_S32x32x1024))) shapeCasts_S32_S32x1 idx)

theorem Ext.pay_iff (x0 : Vec 𝕀 S32x32x1024 .f32) (prev : Vec 𝕀 S32x1 .f32) (idx : S32x1.Idx) (c : EReal) :
    E.r c (E.pay x0 prev idx) ↔ E.r c (prev idx) ∧ ∀ j : S32x32x1024.Idx, (j 0).val = (idx 0).val → E.r c (x0 j) := by
  unfold Ext.pay
  rw [shapeCast_self, shapeCast_self, R0cast_row, E.hr, E.red_iff]
  exact and_congr_right fun _ =>
    ⟨fun H j hj => (E.red_iff _ _ _ c).mp (H _ ((R0drop2 j idx).mpr hj)) j rfl,
      fun H i hi => (E.red_iff _ _ _ c).mpr fun j hj => H j ((R0drop2 j idx).mp (by rw [hj]; exact hi))⟩

variable (V : (c : Dev nD) → (b : Ref sig .tc) → Buf (Elt 𝕀) ((c : Thread nD τ).loc b))

-- Block `t` holds rows 32·t … 32·t + 31 of every image.
theorem R0blk_forall (P : EReal → Prop) (c : Dev nD) (t : Fin cfg0.N) (b : Nat) :
    (∀ j : S32x32x1024.Idx, (j 0).val = b → P ((iblk0 V c 0 t : Vec 𝕀 S32x32x1024 .f32) j : EReal))
      ↔ ∀ k : S32x1024x1024.Idx, (k 0).val = b → 32 * t.val ≤ (k 1).val → (k 1).val < 32 * t.val + 32 →
          P ((V c main_v0 : Vec 𝕀 S32x1024x1024 .f32) k : EReal) := by
  have ht : t.val < 32 := lt_of_lt_of_eq t.isLt N_0
  constructor
  · intro H k h0 hlo hhi
    have hk1 : (k 1).val < 1024 := (k 1).isLt
    have := H (ix3 (k 0) ⟨(k 1).val - 32 * t.val, by omega⟩ (k 2)) h0
    rwa [R0iblk_apply V c t _ k rfl (by show (k 1).val = 32 * t.val + ((k 1).val - 32 * t.val); omega) rfl] at this
  · intro H j h0
    have hj1 : (j 1).val < 32 := (j 1).isLt
    rw [R0iblk_apply V c t j (ix3 (j 0) ⟨32 * t.val + (j 1).val, by omega⟩ (j 2)) rfl rfl rfl]
    exact H _ h0 (by show 32 * t.val ≤ 32 * t.val + (j 1).val; omega) (by show 32 * t.val + (j 1).val < _; omega)

-- One point: a value with the bounds of the rows below 32·t becomes one with the bounds of the rows below 32·(t+1).
theorem Ext.step (c : Dev nD) (t : Fin cfg0.N) (prev : Vec 𝕀 S32x1 .f32) (idx : S32x1.Idx) (cst : EReal)
    (hp : E.r cst (prev idx) ↔ ∀ k : S32x1024x1024.Idx, (k 0).val = (idx 0).val → (k 1).val < 32 * t.val →
      E.r cst ((V c main_v0 : Vec 𝕀 S32x1024x1024 .f32) k)) :
    E.r cst (E.pay (iblk0 V c 0 t) prev idx) ↔ ∀ k : S32x1024x1024.Idx, (k 0).val = (idx 0).val → (k 1).val < 32 * (t.val + 1) →
      E.r cst ((V c main_v0 : Vec 𝕀 S32x1024x1024 .f32) k) := by
  rw [E.pay_iff, R0blk_forall V (E.r cst) c t, hp]
  constructor
  · intro H k h0 h1
    by_cases hk : (k 1).val < 32 * t.val
    · exact H.1 k h0 hk
    · exact H.2 k h0 (by omega) (by omega)
  · intro H
    exact ⟨fun k h0 h1 => H k h0 (by omega), fun k h0 _ h2 => H k h0 (by omega)⟩

-- So the running value after point `n` has the bounds of the image's entries in rows 0 … 32·(n+1) − 1.
theorem Ext.chain_iff (init : Vec 𝕀 S32x1 .f32) (hinit : ∀ idx, init idx = E.e) (c : Dev nD) :
    ∀ (n : ℕ) (h : n < cfg0.N) (idx : S32x1.Idx) (cst : EReal),
    E.r cst (R0chain V E.pay init c n h idx) ↔ ∀ k : S32x1024x1024.Idx, (k 0).val = (idx 0).val → (k 1).val < 32 * (n + 1) →
      E.r cst ((V c main_v0 : Vec 𝕀 S32x1024x1024 .f32) k)
  | 0, h, idx, cst => E.step V c ⟨0, h⟩ init idx cst
      (iff_of_true (by rw [hinit]; exact E.he cst) fun k _ h1 => absurd h1 (Nat.not_lt_zero _))
  | n + 1, h, idx, cst => E.step V c ⟨n + 1, h⟩ _ idx cst (Ext.chain_iff init hinit c n _ idx cst)

variable (x4 : (⟨S32x1x1024x1024, .f32⟩ : BufTy).Contents (Elt 𝕀))

theorem R0flat_apply (h : S32x1x1024x1024.ShapeCasts (⟨2, ![32, 1048576]⟩ : Shape))
    (i : (⟨2, ![32, 1048576]⟩ : Shape).Idx) (q : S32x1x1024x1024.Idx)
    (h0 : (q 0).val = (i 0).val) (h2 : (q 2).val = (i 1).val / 1024) (h3 : (q 3).val = (i 1).val % 1024) :
    shapeCast (⟨2, ![32, 1048576]⟩ : Shape) x4 h i = x4 q :=
  shapeCast_apply x4 h i q (by
    rw [Shape.rowMajor_val_four, Shape.rowMajor_val_two]
    have hq1 : (q 1).val < 1 := (q 1).isLt
    show ((((q 0).val * 1 + (q 1).val) * 1024 + (q 2).val) * 1024 + (q 3).val) = (i 0).val * 1048576 + (i 1).val
    omega)

theorem R0img_apply (k : S32x1024x1024.Idx) (q : S32x1x1024x1024.Idx)
    (h0 : (q 0).val = (k 0).val) (h2 : (q 2).val = (k 1).val) (h3 : (q 3).val = (k 2).val) :
    shapeCast S32x1024x1024 x4 shapeCasts_S32x1x1024x1024_S32x1024x1024 k = x4 q :=
  shapeCast_apply x4 _ k q (by
    rw [Shape.rowMajor_val_four, Shape.rowMajor_val_three]
    have hq1 : (q 1).val < 1 := (q 1).isLt
    show ((((q 0).val * 1 + (q 1).val) * 1024 + (q 2).val) * 1024 + (q 3).val) = (((k 0).val * 1024 + (k 1).val) * 1024 + (k 2).val)
    omega)

-- The reference's extreme of image `b` has exactly the common bounds of the image's entries.
theorem Ext.ref_iff (init : Cert.ReferenceIdeal.S_.Idx → EReal)
    (hinit : ∀ i, init i = E.e) (hc : S32x1x1024x1024.ShapeCasts (⟨2, ![32, 1048576]⟩ : Shape))
    (h : (⟨2, ![32, 1048576]⟩ : Shape).ReducesTo [1] S32) (hu : 0 < Cert.ReferenceIdeal.S_.numel)
    (hb : S32.BroadcastsInDim S32x1 (![0] : Fin 1 → Fin S32x1.rank)) (idx : S32x1.Idx) (cst : EReal) :
    E.r cst (broadcastInDim S32x1 ![0] hb (Host.reduce E.op (shapeCast (⟨2, ![32, 1048576]⟩ : Shape) x4 hc) init h hu) idx) ↔
      ∀ q : S32x1x1024x1024.Idx, (q 0).val = (idx 0).val → E.r cst (x4 q) := by
  rw [broadcastInDim_apply _ _ _ idx (R0row idx) (fun a => by
    match a with
    | ⟨0, _⟩ => show (idx 0).val = if (32 : ℕ) = 1 then 0 else (idx 0).val; rw [if_neg (by decide)]),
    Host.reduce_eq_fold, hinit, E.fold_iff]
  simp only [R0row_iff, Shape.ReducesTo.drop_apply_val_of_eq h _ 0 0]
  constructor
  · intro H q hq
    have hq2 : (q 2).val < 1024 := (q 2).isLt
    have hq3 : (q 3).val < 1024 := (q 3).isLt
    have := H (ix2 (q 0) ⟨1024 * (q 2).val + (q 3).val, by omega⟩) hq
    rwa [R0flat_apply x4 _ _ q rfl (by show (q 2).val = (1024 * (q 2).val + (q 3).val) / 1024; omega)
      (by show (q 3).val = (1024 * (q 2).val + (q 3).val) % 1024; omega)] at this
  · intro H i hi
    have hi1 : (i 1).val < 1048576 := (i 1).isLt
    rw [R0flat_apply x4 _ i (ix4 (i 0) ⟨0, Nat.one_pos⟩ ⟨(i 1).val / 1024, by omega⟩ ⟨(i 1).val % 1024, by omega⟩) rfl rfl rfl]
    exact H _ hi

-- A result of region 0 is the reference's extreme: both have the bounds of the image's entries.
theorem Ext.val0 (c : Dev nD)
    (hx : V c main_v0 = shapeCast S32x1024x1024 x4 shapeCasts_S32x1x1024x1024_S32x1024x1024)
    (init : Vec 𝕀 S32x1 .f32) (hinit : ∀ idx, init idx = E.e) (y : Vec 𝕀 S32x1 .f32)
    (hy : ∀ idx cst, E.r cst (y idx) ↔ ∀ q : S32x1x1024x1024.Idx, (q 0).val = (idx 0).val → E.r cst (x4 q)) :
    R0chain V E.pay init c 31 R0t31.isLt = y := by
  funext idx
  refine E.ext _ _ fun cst => ?_
  rw [E.chain_iff V init hinit c 31 _ idx cst, hy, hx]
  constructor
  · intro H q hq
    have hq2 : (q 2).val < 1024 := (q 2).isLt
    have := H (ix3 (q 0) (q 2) (q 3)) hq (by show (q 2).val < 32 * (31 + 1); omega)
    rwa [R0img_apply x4 _ q rfl rfl rfl] at this
  · intro H k hk _
    rw [R0img_apply x4 k (ix4 (k 0) ⟨0, Nat.one_pos⟩ (k 1) (k 2)) rfl rfl rfl]
    exact H _ hk

theorem val0_lo (c : Dev nD) (x4 : (⟨S32x1x1024x1024, .f32⟩ : BufTy).Contents (Elt 𝕀))
    (hx : V c main_v0 = shapeCast S32x1024x1024 x4 shapeCasts_S32x1x1024x1024_S32x1024x1024) :
    (dat0 V c).arrAt 1 cfg0.N = Cert.ReferenceIdeal.Stages.lo (F := 𝕀) x4 := by
  rw [(R0final V c).1, R0outsAt_eq]
  exact Ext.lo.val0 V x4 c hx _ (fun _ => rfl) _ fun idx cst => Ext.lo.ref_iff x4 _ (fun _ => rfl) _ _ _ _ idx cst

theorem val0_hi (c : Dev nD) (x4 : (⟨S32x1x1024x1024, .f32⟩ : BufTy).Contents (Elt 𝕀))
    (hx : V c main_v0 = shapeCast S32x1024x1024 x4 shapeCasts_S32x1x1024x1024_S32x1024x1024) :
    (dat0 V c).arrAt 2 cfg0.N = Cert.ReferenceIdeal.Stages.hi (F := 𝕀) x4 := by
  rw [(R0final V c).2, R0outsAt_eq]
  exact Ext.hi.val0 V x4 c hx _ (fun _ => rfl) _ fun idx cst => Ext.hi.ref_iff x4 _ (fun _ => rfl) _ _ _ _ idx cst

end IdealValues

end Cert.KernelIdeal.Hand

end
-- ==== Proof.R2Closed.lean ====
import proofs.«104984_j16939351016189_1_alg».proof.Proof.R2
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

abbrev R2img {n0 n1 n2 : Nat} (j : (⟨3, ![n0, n1, n2]⟩ : Shape).Idx) : Fin n0 := ⟨(j 0).val, (j 0).isLt⟩

def R2stp (a v : Elt Ideal .f32) : Elt Ideal .f32 := v + a * (v - v * v)

def R2G (x : S32x1024x1024.Idx → Elt Ideal .f32) (a : S32x4.Idx → Elt Ideal .f32) : S32x1024x1024.Idx → Elt Ideal .f32 :=
  fun i => R2stp (a (ix2 (R2img i) 3)) (R2stp (a (ix2 (R2img i) 2)) (R2stp (a (ix2 (R2img i) 1)) (R2stp (a (ix2 (R2img i) 0)) (x i))))

def R2spread (k : Fin 4) (hs : S32x4.Slices ![0, k.val] S32x1) (x1 : Vec Ideal S32x4 .f32) : FVec Ideal S32x32x1024 .f32 :=
  broadcastTo S32x32x1024 (shapeCast S32x1x1 (shapeCast S32 (extractStridedSlice S32x1 ![0, k.val] (shapeCast S32x4 x1 shapeCasts_S32x4_S32x4) hs) shapeCasts_S32x1_S32) shapeCasts_S32_S32x1x1) broadcasts_S32x1x1_S32x32x1024

theorem R2spread_apply (k : Fin 4) (hs : S32x4.Slices ![0, k.val] S32x1) (x1 : Vec Ideal S32x4 .f32) (j : S32x32x1024.Idx) :
    R2spread k hs x1 j = x1 (ix2 (R2img j) k) := by
  unfold R2spread
  refine (broadcastTo_apply _ _ j (ix3 (R2img j) (0 : Fin 1) (0 : Fin 1)) (fun a => match a with
    | ⟨0, _⟩ => by show (j 0).val = if (32 : Nat) = 1 then 0 else (j 0).val; rfl
    | ⟨1, _⟩ => by show (0 : Nat) = if (1 : Nat) = 1 then 0 else (j 1).val; rfl
    | ⟨2, _⟩ => by show (0 : Nat) = if (1 : Nat) = 1 then 0 else (j 2).val; rfl)).trans ?_
  refine (shapeCast_apply _ _ (ix3 (R2img j) (0 : Fin 1) (0 : Fin 1)) (ix1 (R2img j)) (by
    rw [Shape.rowMajor_val_one, Shape.rowMajor_val_three]
    show (j 0).val = ((j 0).val * 1 + 0) * 1 + 0
    omega)).trans ?_
  refine (shapeCast_apply _ _ (ix1 (R2img j)) (ix2 (R2img j) (0 : Fin 1)) (by
    rw [Shape.rowMajor_val_one, Shape.rowMajor_val_two]
    show (j 0).val * 1 + 0 = (j 0).val
    omega)).trans ?_
  refine (extractStridedSlice_apply _ _ hs (ix2 (R2img j) (0 : Fin 1)) (ix2 (R2img j) k) (fun a => match a with
    | ⟨0, _⟩ => by show (j 0).val = 0 + (j 0).val; omega
    | ⟨1, _⟩ => by show k.val = k.val + 0; omega)).trans ?_
  exact shapeCast_apply _ _ (ix2 (R2img j) k) (ix2 (R2img j) k) rfl

def R2vstep (a v : FVec Ideal S32x32x1024 .f32) : FVec Ideal S32x32x1024 .f32 := addf v (mulf a (subf v (mulf v v)))

theorem R2vstep_apply (a v : FVec Ideal S32x32x1024 .f32) (j : S32x32x1024.Idx) : R2vstep a v j = R2stp (a j) (v j) := rfl

theorem R2pay_eq (x0 : Vec Ideal S32x32x1024 .f32) (x1 : Vec Ideal S32x4 .f32) :
    k2_pay1 x0 x1 = R2vstep (R2spread 3 slices_S32x4_o0_3_S32x1 x1) (R2vstep (R2spread 2 slices_S32x4_o0_2_S32x1 x1)
      (R2vstep (R2spread 1 slices_S32x4_o0_1_S32x1 x1) (R2vstep (R2spread 0 slices_S32x4_o0_0_S32x1 x1)
        (shapeCast S32x32x1024 x0 shapeCasts_S32x32x1024_S32x32x1024)))) := rfl

theorem R2pay_apply (x0 : Vec Ideal S32x32x1024 .f32) (x1 : Vec Ideal S32x4 .f32) (j : S32x32x1024.Idx) :
    k2_pay1 x0 x1 j = R2stp (x1 (ix2 (R2img j) 3)) (R2stp (x1 (ix2 (R2img j) 2)) (R2stp (x1 (ix2 (R2img j) 1)) (R2stp (x1 (ix2 (R2img j) 0)) (x0 j)))) := by
  rw [R2pay_eq, shapeCast_self]
  simp only [R2vstep_apply, R2spread_apply]

theorem R2hz3 : (![0, 0, 0] : Fin 3 → Nat) = fun _ => 0 := funext fun a => by fin_cases a <;> rfl
theorem R2hz2 : (![0, 0] : Fin 2 → Nat) = fun _ => 0 := funext fun a => by fin_cases a <;> rfl

theorem R2idx_facts : ∀ t : Fin cfg2.N,
    win2_0.index t = win2_2.index t
    ∧ win2_2.index t (0 : Fin 3) = 0 ∧ win2_2.index t (1 : Fin 3) = t.val ∧ win2_2.index t (2 : Fin 3) = 0
    ∧ win2_1.index t (0 : Fin 2) = 0 ∧ win2_1.index t (1 : Fin 2) = 0 :=
  (by decide +kernel : ∀ t : Fin grid2.N, _)

-- Point t writes back rows 32t … 32t+31 of every image, each entry refined with its image's four coefficients.
theorem R2flushed_eq (c : Dev nD) (t : Fin cfg2.N) :
    (dat2 V c).flushed 2 t = ((cfg2.win 2).blk t).view.read (Elt Ideal) (R2G (V c main_v0) (V c main_v34)) := by
  show (cfg2.win 2).cut (grid2.coords t) ((dat2 V c).after 2 t) = _
  rw [R2after2]
  unfold R2out2
  rw [View.canon_unit_zero R2hz3]
  simp only [View.ld_unit_zero (S := S32x32x1024) R2hz3, View.ld_unit_zero (S := S32x4) R2hz2]
  obtain ⟨hw, e3, e4, e5, e6, e7⟩ := R2idx_facts t
  funext j
  show k2_pay1 (iblk2 V c 0 t) (iblk2 V c 1 t) j = R2G (V c main_v0) (V c main_v34) (((cfg2.win 2).blk t).view.emb j)
  rw [R2pay_apply]
  unfold R2G
  have h0 : iblk2 V c 0 t j = V c main_v0 (((cfg2.win 2).blk t).view.emb j) :=
    congrArg (V c main_v0) (funext fun a => Fin.ext (by
      show win2_0.index t a * S32x32x1024.size a + 1 * (j a).val = win2_2.index t a * S32x32x1024.size a + 1 * (j a).val
      rw [hw]))
  have h1 : ∀ k : Fin 4, iblk2 V c 1 t (ix2 (R2img j) k) = V c main_v34 (ix2 (R2img (((cfg2.win 2).blk t).view.emb j)) k) := by
    intro k
    show V c main_v34 (((cfg2.win 1).blk t).view.emb (ix2 (R2img j) k)) = V c main_v34 (ix2 (R2img (((cfg2.win 2).blk t).view.emb j)) k)
    refine congrArg (V c main_v34) (funext fun a => Fin.ext ?_)
    match a with
    | ⟨0, _⟩ => show win2_1.index t (0 : Fin 2) * 32 + 1 * (j 0).val = win2_2.index t (0 : Fin 3) * 32 + 1 * (j 0).val; omega
    | ⟨1, _⟩ => show win2_1.index t (1 : Fin 2) * 4 + 1 * k.val = k.val; omega
  rw [h0, h1 0, h1 1, h1 2, h1 3]

theorem R2cover (i : S32x1024x1024.Idx) : ∃ t : Fin cfg2.N, (cfg2.win 2).flush t = true ∧ i ∈ ((cfg2.win 2).blk t).view.set := by
  have hi0 : (i 0).val < 32 := (i 0).isLt
  have hi1 : (i 1).val < 1024 := (i 1).isLt
  have hi2 : (i 2).val < 1024 := (i 2).isLt
  have ht : (i 1).val / 32 < cfg2.N := by show (i 1).val / 32 < 32; omega
  refine ⟨⟨(i 1).val / 32, ht⟩, flush2_2 _, ?_⟩
  show i ∈ ((View.whole main_v35).slice (win2_2.rect ⟨(i 1).val / 32, ht⟩)).set
  rw [View.set_slice_whole, Rect.mem_set_unit]
  obtain ⟨-, e3, e4, e5, -, -⟩ := R2idx_facts ⟨(i 1).val / 32, ht⟩
  have e4' : win2_2.index ⟨(i 1).val / 32, ht⟩ (1 : Fin 3) = (i 1).val / 32 := e4
  intro a
  match a with
  | ⟨0, _⟩ => show win2_2.index ⟨(i 1).val / 32, ht⟩ (0 : Fin 3) * 32 ≤ (i 0).val ∧ (i 0).val < win2_2.index ⟨(i 1).val / 32, ht⟩ (0 : Fin 3) * 32 + 32; omega
  | ⟨1, _⟩ => show win2_2.index ⟨(i 1).val / 32, ht⟩ (1 : Fin 3) * 32 ≤ (i 1).val ∧ (i 1).val < win2_2.index ⟨(i 1).val / 32, ht⟩ (1 : Fin 3) * 32 + 32; omega
  | ⟨2, _⟩ => show win2_2.index ⟨(i 1).val / 32, ht⟩ (2 : Fin 3) * 1024 ≤ (i 2).val ∧ (i 2).val < win2_2.index ⟨(i 1).val / 32, ht⟩ (2 : Fin 3) * 1024 + 1024; omega

-- Row r of an image lies in the block of point r / 32, so the blocks cover the array.
theorem R2final (c : Dev nD) : (dat2 V c).arrAt 2 cfg2.N = R2G (V c main_v0) (V c main_v34) :=
  (dat2 V c).arrAt_eq_of_cover 2 _ (fun t _ => R2flushed_eq V c t) R2cover

end Cert.KernelIdeal.Hand

end
-- ==== Proof.Val2.lean ====
import proofs.«104984_j16939351016189_1_alg».proof.Proof.R2Closed
import proofs.«104984_j16939351016189_1_alg».proof.Proof.RefStages
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable [Cert.KernelIdeal.Facts] [Cert.ReferenceIdeal.Facts]

variable (V : (c : Dev nD) → (b : Ref sig .tc) → Buf (Elt Ideal) ((c : Thread nD τ).loc b))

abbrev R2img4 {n0 n1 n2 n3 : Nat} (j : (⟨4, ![n0, n1, n2, n3]⟩ : Shape).Idx) : Fin n0 := ⟨(j 0).val, (j 0).isLt⟩

abbrev R2drop (j : Cert.KernelIdeal.S32x1x1024x1024.Idx) : Cert.KernelIdeal.S32x1024x1024.Idx :=
  ix3 (R2img4 j) (⟨(j 2).val, (j 2).isLt⟩ : Fin 1024) (⟨(j 3).val, (j 3).isLt⟩ : Fin 1024)

theorem R2ref_step_apply (a v : Cert.ReferenceIdeal.Stages.TF Ideal Cert.ReferenceIdeal.S32x1x1024x1024) (j : Cert.ReferenceIdeal.S32x1x1024x1024.Idx) :
    Cert.ReferenceIdeal.Stages.step a v j = R2stp (a j) (v j) := rfl

theorem R2ref_spread (k : Fin 4) (a : Cert.ReferenceIdeal.Stages.TF Ideal Cert.ReferenceIdeal.S32x4)
    (hs : Cert.ReferenceIdeal.S32x4.Slices ![0, k.val] Cert.ReferenceIdeal.S32x1) (j : Cert.ReferenceIdeal.S32x1x1024x1024.Idx) :
    broadcastInDim Cert.ReferenceIdeal.S32x1x1024x1024 ![0, 1, 2, 3] Cert.ReferenceIdeal.Facts₀.bcast_S32x1x1x1_S32x1x1024x1024_0_1_2_3
      (broadcastInDim Cert.ReferenceIdeal.S32x1x1x1 ![0] Cert.ReferenceIdeal.Facts₀.bcast_S32_S32x1x1x1_0
        (shapeCast Cert.ReferenceIdeal.S32 (extractStridedSlice Cert.ReferenceIdeal.S32x1 ![0, k.val] a hs) Cert.ReferenceIdeal.Facts₀.shapeCasts_S32x1_S32)) j
      = a (ix2 (R2img4 j) k) := by
  refine (broadcastInDim_apply _ _ _ j (ix4 (R2img4 j) (0 : Fin 1) (0 : Fin 1) (0 : Fin 1)) (fun b => match b with
    | ⟨0, _⟩ => by show (j 0).val = if (32 : Nat) = 1 then 0 else (j 0).val; rfl
    | ⟨1, _⟩ => by show (0 : Nat) = if (1 : Nat) = 1 then 0 else (j 1).val; rfl
    | ⟨2, _⟩ => by show (0 : Nat) = if (1 : Nat) = 1 then 0 else (j 2).val; rfl
    | ⟨3, _⟩ => by show (0 : Nat) = if (1 : Nat) = 1 then 0 else (j 3).val; rfl)).trans ?_
  refine (broadcastInDim_apply _ _ _ (ix4 (R2img4 j) (0 : Fin 1) (0 : Fin 1) (0 : Fin 1)) (ix1 (R2img4 j)) (fun b => match b with
    | ⟨0, _⟩ => by show (j 0).val = if (32 : Nat) = 1 then 0 else (j 0).val; rfl)).trans ?_
  refine (shapeCast_apply _ _ (ix1 (R2img4 j)) (ix2 (R2img4 j) (0 : Fin 1)) (by
    rw [Shape.rowMajor_val_one, Shape.rowMajor_val_two]
    show (j 0).val * 1 + 0 = (j 0).val
    omega)).trans ?_
  exact extractStridedSlice_apply _ _ hs (ix2 (R2img4 j) (0 : Fin 1)) (ix2 (R2img4 j) k) (fun b => match b with
    | ⟨0, _⟩ => by show (j 0).val = 0 + (j 0).val; omega
    | ⟨1, _⟩ => by show k.val = k.val + 0; omega)

theorem R2ref_refine_apply (x : Cert.ReferenceIdeal.Stages.TF Ideal Cert.ReferenceIdeal.S32x1x1024x1024) (a : Cert.ReferenceIdeal.Stages.TF Ideal Cert.ReferenceIdeal.S32x4)
    (j : Cert.ReferenceIdeal.S32x1x1024x1024.Idx) :
    Cert.ReferenceIdeal.Stages.refine x a j
      = R2stp (a (ix2 (R2img4 j) 3)) (R2stp (a (ix2 (R2img4 j) 2)) (R2stp (a (ix2 (R2img4 j) 1)) (R2stp (a (ix2 (R2img4 j) 0)) (x j)))) := by
  unfold Cert.ReferenceIdeal.Stages.refine
  simp only [R2ref_step_apply]
  exact congrArg₂ R2stp (R2ref_spread 3 a _ j) (congrArg₂ R2stp (R2ref_spread 2 a _ j)
    (congrArg₂ R2stp (R2ref_spread 1 a _ j) (congrArg (R2stp · (x j)) (R2ref_spread 0 a _ j))))

theorem R2rm (j : S32x1x1024x1024.Idx) : (S32x1024x1024.rowMajor (R2drop j)).val = (S32x1x1024x1024.rowMajor j).val := by
  have hj1 : (j 1).val < 1 := (j 1).isLt
  rw [Shape.rowMajor_val_three, Shape.rowMajor_val_four]
  show ((j 0).val * 1024 + (j 2).val) * 1024 + (j 3).val = (((j 0).val * 1 + (j 1).val) * 1024 + (j 2).val) * 1024 + (j 3).val
  omega

-- Entry by entry both sides are the four steps v ↦ v + a·(v − v·v) with the four coefficients of the entry's image.
theorem val2_refine (c : Dev nD) (x4 : (⟨S32x1x1024x1024, .f32⟩ : BufTy).Contents (Elt Ideal))
    (hx : V c main_v0 = shapeCast S32x1024x1024 x4 shapeCasts_S32x1x1024x1024_S32x1024x1024) :
    shapeCast S32x1x1024x1024 ((dat2 V c).arrAt 2 cfg2.N) shapeCasts_S32x1024x1024_S32x1x1024x1024
      = Cert.ReferenceIdeal.Stages.refine (F := Ideal) x4 (V c main_v34) := by
  rw [R2final, hx]
  funext j
  rw [shapeCast_apply _ _ j (R2drop j) (R2rm j), R2ref_refine_apply]
  unfold R2G
  rw [shapeCast_apply _ _ (R2drop j) j (R2rm j).symm]

end Cert.KernelIdeal.Hand

end
-- ==== Proof.HostChain.lean ====
import proofs.«104984_j16939351016189_1_alg».proof.Proof.Gen.KernelIdeal.Regions
import proofs.«104984_j16939351016189_1_alg».proof.Proof.RefStages

noncomputable section

namespace Cert.KernelIdeal.Hand

open Idealize.ShloMosaic Idealize.ShloMosaic.TcCoe
open Cert.KernelIdeal Cert.KernelIdeal.Gen
open Cert.ReferenceIdeal.Stages (features lrelu64 lrelu4 bias64 coeffs)

variable {F : FTy → Type} [FloatOps F]
variable [Cert.KernelIdeal.Facts] [Cert.ReferenceIdeal.Facts]
variable (W : Valuation τ sig (Elt F))

theorem host0_v0 :
    StableHlo.after hostOps0 W main_v0
      = shapeCast S32x1024x1024 (W main_arg0) shapeCasts_S32x1x1024x1024_S32x1024x1024 := by
  show StableHlo.after hostOps0 W (Proc.devRef .tc main_v0) = _
  after_results
  rfl

theorem host3_v36 :
    StableHlo.after hostOps3 W main_v36
      = shapeCast S32x1x1024x1024 (W main_v35) shapeCasts_S32x1024x1024_S32x1x1024x1024 := by
  show StableHlo.after hostOps3 W (Proc.devRef .tc main_v36) = _
  after_results
  rfl

theorem s0_v8 :
    StableHlo.after hostOps2 W main_v8 = features (W main_v2) (W main_v1_0) (W main_v1_1) (W main_arg1) := by
  show StableHlo.after hostOps2 W (Proc.devRef .tc main_v8) = _
  after_results
  rfl

-- The five dense layers, each with its activation: two stretches of the program apiece.
theorem layers :
    (StableHlo.after hostOps2_1 (StableHlo.after hostOps2 W) main_v13
      = lrelu64 (bias64 (Host.dotGeneral Cert.ReferenceIdeal.dot_S32x35_S35x64_S32x64_1_0_0_1_n_n none
          (features (W main_v2) (W main_v1_0) (W main_v1_1) (W main_arg1)) (W main_arg2)) (W main_arg3))) ∧
    (StableHlo.after hostOps2_3 (StableHlo.after hostOps2_2 W) main_v18
      = lrelu64 (bias64 (Host.dotGeneral Cert.ReferenceIdeal.dot_S32x64_S64x64_S32x64_1_0_0_1_n_n none (W main_v13) (W main_arg4)) (W main_arg5))) ∧
    (StableHlo.after hostOps2_5 (StableHlo.after hostOps2_4 W) main_v24
      = lrelu64 (bias64 (Host.dotGeneral Cert.ReferenceIdeal.dot_S32x99_S99x64_S32x64_1_0_0_1_n_n none
          (concatenate Cert.ReferenceIdeal.S32x99 1 [⟨Cert.ReferenceIdeal.S32x64, W main_v18⟩, ⟨Cert.ReferenceIdeal.S32x35, W main_v8⟩]
            Cert.ReferenceIdeal.Facts₀.concatenates_S32x64_S32x35_S32x99_d1) (W main_arg6)) (W main_arg7))) ∧
    (StableHlo.after hostOps2_7 (StableHlo.after hostOps2_6 W) main_v29
      = lrelu64 (bias64 (Host.dotGeneral Cert.ReferenceIdeal.dot_S32x64_S64x64_S32x64_1_0_0_1_n_n none (W main_v24) (W main_arg8)) (W main_arg9))) ∧
    (StableHlo.after hostOps2_9 (StableHlo.after hostOps2_8 W) main_v34
      = lrelu4 (addf (Host.dotGeneral Cert.ReferenceIdeal.dot_S32x64_S64x4_S32x4_1_0_0_1_n_n none (W main_v29) (W main_arg10))
          (broadcastInDim Cert.ReferenceIdeal.S32x4 ![0, 1] Cert.ReferenceIdeal.Facts₀.bcast_S1x4_S32x4_0_1
            (broadcastInDim Cert.ReferenceIdeal.S1x4 ![1] Cert.ReferenceIdeal.Facts₀.bcast_S4_S1x4_1 (W main_arg11))))) := by
  refine ⟨?_, ?_, ?_, ?_, ?_⟩ <;>
  · show StableHlo.after _ _ (Proc.devRef .tc _) = _
    after_results_simp
    simp only [StableHlo.TRef.ofBuf, StableHlo.TRef.toBuf, cast_eq]
    rfl

theorem keep {ops : List (HloOp τ sig (Elt F))} {Wl : List (Ref sig .tc)}
    (hw : ops.Forall fun op => op.writes ⊆ (Wl.map (Proc.devRef (τ := τ) .tc)).toFinset)
    (W : Valuation τ sig (Elt F)) (r : Ref sig .tc) (h : r ∉ Wl) :
    StableHlo.after ops W (no_index (Proc.devRef .tc r)) = W (Proc.devRef .tc r) :=
  StableHlo.after_of_writes_sub ops W hw h

theorem host2_v34 :
    (StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 W)))))))))) main_v34
      = coeffs (features (W main_v2) (W main_v1_0) (W main_v1_1) (W main_arg1)) (W main_arg2) (W main_arg3) (W main_arg4)
          (W main_arg5) (W main_arg6) (W main_arg7) (W main_arg8) (W main_arg9) (W main_arg10) (W main_arg11) := by
  show StableHlo.after hostOps2_9 _ (Proc.devRef .tc main_v34) = _
  rw [(layers _).2.2.2.2, (layers _).2.2.2.1, (layers _).2.2.1, (layers _).2.1, (layers _).1]
  simp (disch := decide) only [keep hostOps2_writes, keep hostOps2_1_writes, keep hostOps2_2_writes, keep hostOps2_3_writes, keep hostOps2_4_writes, keep hostOps2_5_writes, keep hostOps2_6_writes, keep hostOps2_7_writes, keep hostOps2_8_writes, keep hostOps2_9_writes]
  rw [keep hostOps2_1_writes _ main_arg4 (by decide), keep hostOps2_writes _ main_arg4 (by decide), keep hostOps2_1_writes _ main_arg5 (by decide), keep hostOps2_writes _ main_arg5 (by decide),
    keep hostOps2_3_writes _ main_v8 (by decide), keep hostOps2_2_writes _ main_v8 (by decide), keep hostOps2_1_writes _ main_v8 (by decide), s0_v8]
  rfl

end Cert.KernelIdeal.Hand

end
-- ==== Proof.Assemble.lean ====
import proofs.«104984_j16939351016189_1_alg».proof.Proof.RunArgs
import proofs.«104984_j16939351016189_1_alg».proof.Proof.RefStages
import proofs.«104984_j16939351016189_1_alg».proof.Proof.Val1
import proofs.«104984_j16939351016189_1_alg».proof.Proof.Val0
import proofs.«104984_j16939351016189_1_alg».proof.Proof.Val2
import proofs.«104984_j16939351016189_1_alg».proof.Proof.HostChain
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Cert.ReferenceIdeal (Stages.lo Stages.hi Stages.counts Stages.refine Stages.result)

variable [Cert.ReferenceIdeal.Facts]

variable (m : (ℓ : Loc nD τ sig) → Buf (Elt Ideal) ℓ) (c : Dev nD)

/-- An argument array as launched. -/
abbrev arg (r : Ref sig .tc) := m ((c : Thread nD τ).loc r)

theorem X1_v0 : X1 m c main_v0 = shapeCast S32x1024x1024 (arg m c main_arg0) shapeCasts_S32x1x1024x1024_S32x1024x1024 :=
  host0_v0 (W0 m c)

-- Region 0 only reads the image; it leaves each image's least and greatest entry.
theorem X2_v0 : X2 m c main_v0 = X1 m c main_v0 :=
  (W2_arr m c 0).trans (((dat0 (X1 m) c).arrAt_in 0 rfl _).trans (A_eq0 (X1 m) c 0))
theorem X2_lo : X2 m c main_v1_0 = Stages.lo (F := Ideal) (arg m c main_arg0) :=
  (W2_arr m c 1).trans (val0_lo (X1 m) c _ (X1_v0 m c))
theorem X2_hi : X2 m c main_v1_1 = Stages.hi (F := Ideal) (arg m c main_arg0) :=
  (W2_arr m c 2).trans (val0_hi (X1 m) c _ (X1_v0 m c))

-- Region 1 only reads the image and the two extremes; it leaves the count of each image's entries per bin.
theorem W3_v0 : W3 m c main_v0 = X1 m c main_v0 :=
  (W3_arr m c 0).trans ((((dat1 (X2 m) c).arrAt_in 0 rfl _).trans (A_eq1 (X2 m) c 0)).trans (X2_v0 m c))
theorem W3_lo : W3 m c main_v1_0 = Stages.lo (F := Ideal) (arg m c main_arg0) :=
  (W3_arr m c 1).trans ((((dat1 (X2 m) c).arrAt_in 1 rfl _).trans (A_eq1 (X2 m) c 1)).trans (X2_lo m c))
theorem W3_hi : W3 m c main_v1_1 = Stages.hi (F := Ideal) (arg m c main_arg0) :=
  (W3_arr m c 2).trans ((((dat1 (X2 m) c).arrAt_in 2 rfl _).trans (A_eq1 (X2 m) c 2)).trans (X2_hi m c))
theorem W3_counts : W3 m c main_v2
    = Stages.counts (F := Ideal) (arg m c main_arg0) (Stages.lo (arg m c main_arg0)) (Stages.hi (arg m c main_arg0)) := by
  refine (W3_arr m c 3).trans ((val1_counts (X2 m) c (arg m c main_arg0) ((X2_v0 m c).trans (X1_v0 m c))).trans ?_)
  rw [X2_lo, X2_hi]

-- An argument array is as launched when the host operations after region 1 read it.
theorem W3_arg (r : Ref sig .tc) (ha : r ∉ hostOps0_W := by decide)
    (hr0 : ∀ w, Pipeline.arrRef spec0 w ≠ r := by decide) (hr1 : ∀ w, Pipeline.arrRef spec1 w ≠ r := by decide) :
    W3 m c (Proc.devRef .tc r) = arg m c r :=
  (W3_of_ne m c r hr1).trans <| (W2_of_ne m c r hr0).trans <| StableHlo.after_of_writes_sub hostOps0 _ hostOps0_writes ha

-- The result: the refining steps of the image with the coefficients the dense network makes of counts, extremes and the extra column.
theorem W15_v36 : W15 m c main_v36
    = Stages.result (F := Ideal) (arg m c main_arg0) (arg m c main_arg1) (arg m c main_arg2) (arg m c main_arg3) (arg m c main_arg4) (arg m c main_arg5)
        (arg m c main_arg6) (arg m c main_arg7) (arg m c main_arg8) (arg m c main_arg9) (arg m c main_arg10) (arg m c main_arg11) := by
  refine (host3_v36 (W14 m c)).trans ?_
  rw [W14_arr m c 2]
  refine (val2_refine (X13 m) c (arg m c main_arg0) ((W13_of m c main_v0).trans ((W3_v0 m c).trans (X1_v0 m c)))).trans
    (congrArg (Stages.refine _) ((host2_v34 (W3 m c)).trans ?_))
  rw [W3_counts, W3_lo, W3_hi, W3_arg m c main_arg1, W3_arg m c main_arg2, W3_arg m c main_arg3, W3_arg m c main_arg4, W3_arg m c main_arg5,
    W3_arg m c main_arg6, W3_arg m c main_arg7, W3_arg m c main_arg8, W3_arg m c main_arg9, W3_arg m c main_arg10, W3_arg m c main_arg11]

end Cert.KernelIdeal.Hand

end
-- ==== Proof.RefRunA.lean ====
import proofs.«104984_j16939351016189_1_alg».proof.Proof.RefStages
import Idealize.ShloMosaic.Lib.StableHlo.Run
import Idealize.ShloMosaic.Lib.Pipeline.Frame

set_option Elab.async false

noncomputable section

namespace Cert.ReferenceIdeal.RefRun

open Cert.ReferenceIdeal Idealize.ShloMosaic Idealize.ShloMosaic.TcCoe Idealize.SL.Sem Idealize.ShloMosaic.StableHlo Stages

variable {F : FTy → Type} [FloatOps F] [Cert.ReferenceIdeal.Facts]
open Facts₀ Facts

def binsOf (fx : TF F S32x1048576) (l sf : TF F S32x1) : TI F S32x1048576 :=
  minsi (broadcastInDim S32x1048576 ![] bcast_S_S32x1048576 (id (constantI S_ 32 31#32)))
    (maxsi (broadcastInDim S32x1048576 ![] bcast_S_S32x1048576 (id (constantI S_ 32 0#32)))
      (fptosi 32 (Host.floor (mulf
        (Host.divf (subf fx (broadcastInDim S32x1048576 ![0, 1] bcast_S32x1_S32x1048576_0_1 l))
          (broadcastInDim S32x1048576 ![0, 1] bcast_S32x1_S32x1048576_0_1 sf))
        (broadcastInDim S32x1048576 ![] bcast_S_S32x1048576 (constant S_ .f32 0x42000000#32))))))

def slotVec (b : TI F S32x1048576) : TI F S33554432 :=
  shapeCast S33554432
    (addi b
      (broadcastInDim S32x1048576 ![0, 1] bcast_S32x1_S32x1048576_0_1
        (muli (broadcastInDim S32x1 ![0] bcast_S32_S32x1_0 (iotaInDim S32 32 0))
          (broadcastInDim S32x1 ![] bcast_S_S32x1 (constantI S_ 32 32#32))))) shapeCasts_S32x1048576_S33554432

def countsOf (g : TI F S33554432) : TF F S32x32 :=
  shapeCast S32x32
    ((fun x i u => Host.scatterAdd scatter_S1024_S33554432x1_S33554432_n_0_0_1 x i u : TF F S1024 → TI F S33554432x1 → TF F S33554432 → TF F S1024)
      (broadcastInDim S1024 ![] bcast_S_S1024 (constant S_ .f32 0x00000000#32))
      (broadcastInDim S33554432x1 ![0] bcast_S33554432_S33554432x1_0
        (select (cmpi .slt g (broadcastInDim S33554432 ![] bcast_S_S33554432 (constantI S_ 32 0#32)))
          (addi g (broadcastInDim S33554432 ![] bcast_S_S33554432 (constantI S_ 32 1024#32))) g))
      (broadcastInDim S33554432 ![] bcast_S_S33554432 (constant S_ .f32 0x3F800000#32)))
    shapeCasts_S1024_S32x32

def cat99 (a : TF F S32x64) (b : TF F S32x35) : TF F S32x99 :=
  concatenate S32x99 1 [⟨S32x64, a⟩, ⟨S32x35, b⟩] concatenates_S32x64_S32x35_S32x99_d1

/-- Every operation of the line writes one buffer, numbered `a` or higher (the buffers are numbered in program order). -/
def Ok (a : ℕ) (l : List (HloOp τ sig (Elt F))) : Prop :=
  l.Forall fun op => op.bufs ⊆ tcRefs τ sig ∧ op.fresh = ∅ ∧ ∃ y : Ref sig .tc, op.writes = {Proc.devRef .tc y} ∧ a ≤ y.idx

theorem Ok.append {a b : ℕ} {l₁ l₂ : List (HloOp τ sig (Elt F))} (h₁ : Ok a l₁) (h₂ : Ok b l₂) (hab : a ≤ b := by decide) :
    Ok a (l₁ ++ l₂) :=
  List.forall_append.mpr ⟨h₁, h₂.imp fun _ ⟨hb, hf, y, hw, hy⟩ => ⟨hb, hf, y, hw, hab.trans hy⟩⟩

/-- A buffer numbered below everything the line writes keeps its contents through it. -/
theorem Ok.keep {a : ℕ} {l : List (HloOp τ sig (Elt F))} (h : Ok a l) (V : Valuation τ sig (Elt F)) {r : Ref sig .tc} (hr : r.idx < a) :
    after l V (no_index (Proc.devRef .tc r)) = V (Proc.devRef .tc r) :=
  after_of_forall_not_mem l V fun op hop hb => by
    obtain ⟨-, -, y, hw, hy⟩ := List.forall_iff_forall_mem.mp h op hop
    rw [hw, Finset.mem_singleton] at hb
    cases Proc.devRef_injective _ hb
    omega

/-- The leaky activation on typed buffers: y where y ≥ 0, else slope·y. -/
def lreluOps (x : TRef sig ⟨S32x64, .f32⟩) (s : TRef sig ⟨S_, .f32⟩) (φ : fn_leaky_relu.Bufs) : List (HloOp τ sig (Elt F)) :=
  [ TRef.nullary φ.cst (constant S_ .f32 0x00000000#32),
    TRef.unary φ.cst φ.v0 (broadcastInDim S32x64 ![] bcast_S_S32x64),
    TRef.binary x φ.v0 φ.v1 (cmpf .oge),
    TRef.unary s φ.v2 id,
    TRef.unary φ.v2 φ.v3 (broadcastInDim S32x64 ![] bcast_S_S32x64),
    TRef.binary φ.v3 x φ.v4 mulf,
    TRef.ternary φ.v1 x φ.v4 φ.call0.v0 select ]

/-- One refining step on typed buffers: a coefficient column spread over every pixel, then v + a·(v − v·v). -/
def stepOps {o : Fin S32x4.rank → ℕ} (hs : S32x4.Slices o S32x1) (v : TRef sig ⟨S32x1x1024x1024, .f32⟩) (t0 : TRef sig ⟨S32x1, .f32⟩)
    (t1 : TRef sig ⟨S32, .f32⟩) (t2 : TRef sig ⟨S32x1x1x1, .f32⟩) (t3 t4 t5 t6 y : TRef sig ⟨S32x1x1024x1024, .f32⟩) : List (HloOp τ sig (Elt F)) :=
  [ TRef.unary (.of main_v67) t0 (extractStridedSlice S32x1 o · hs),
    TRef.reshape t0 t1 rfl shapeCasts_S32x1_S32,
    TRef.unary t1 t2 (broadcastInDim S32x1x1x1 ![0] bcast_S32_S32x1x1x1_0),
    TRef.binary v v t3 mulf,
    TRef.binary v t3 t4 subf,
    TRef.unary t2 t5 (broadcastInDim S32x1x1024x1024 ![0, 1, 2, 3] bcast_S32x1x1x1_S32x1x1024x1024_0_1_2_3),
    TRef.binary t5 t4 t6 mulf,
    TRef.binary v t6 y addf ]

variable (W : Valuation τ sig (Elt F))

def cA : List (HloOp τ sig (Elt F)) :=
  [ reshape main_arg0 main_v0 rfl shapeCasts_S32x1x1024x1024_S32x1048576,
    nullary main_cst (constant S_ .f32 0x7F800000#32),
    binary main_v0 main_cst main_v1 (fun x v => Host.reduce FloatOps.minimumf x v reducesTo_S32x1048576_S32_d1 h_S_),
    unary main_v1 main_v2 (broadcastInDim S32x1 ![0] bcast_S32_S32x1_0),
    nullary main_cst_0 (constant S_ .f32 0xFF800000#32),
    binary main_v0 main_cst_0 main_v3 (fun x v => Host.reduce FloatOps.maximumf x v reducesTo_S32x1048576_S32_d1 h_S_),
    unary main_v3 main_v4 (broadcastInDim S32x1 ![0] bcast_S32_S32x1_0),
    binary main_v4 main_v2 main_v5 subf,
    nullary main_cst_1 (constant S_ .f32 0x00000000#32),
    unary main_cst_1 main_v6 (broadcastInDim S32x1 ![] bcast_S_S32x1),
    binary main_v5 main_v6 main_v7 (cmpf .ogt),
    nullary main_cst_2 (constant S_ .f32 0x3F800000#32),
    unary main_cst_2 main_v8 (broadcastInDim S32x1 ![] bcast_S_S32x1),
    TRef.ternary (.of main_v7) (.of main_v5) (.of main_v8) main_call0.v0 select ]
theorem cA_ok : Ok (F := F) 12 cA := by
  unfold cA; and_intros <;> first | exact ⟨_, rfl, by decide⟩ | exact rfl | simp
theorem cA_v0 :
    after cA W (no_index (main_v0 : DevRef τ sig)) = flat (W main_arg0) := by
  unfold cA; after_results_simp; rfl
theorem cA_v2 :
    after cA W (no_index (main_v2 : DevRef τ sig)) = lo (W main_arg0) := by
  unfold cA; after_results_simp; rfl
theorem cA_v4 :
    after cA W (no_index (main_v4 : DevRef τ sig)) = hi (W main_arg0) := by
  unfold cA; after_results_simp; rfl
theorem cA_v9 :
    after cA W (no_index (main_v9 : DevRef τ sig)) = safe (lo (W main_arg0)) (hi (W main_arg0)) := by
  unfold cA; after_results_simp; rfl

def cC : List (HloOp τ sig (Elt F)) :=
  [ unary main_v2 main_v10 (broadcastInDim S32x1048576 ![0, 1] bcast_S32x1_S32x1048576_0_1),
    binary main_v0 main_v10 main_v11 subf,
    unary main_v9 main_v12 (broadcastInDim S32x1048576 ![0, 1] bcast_S32x1_S32x1048576_0_1),
    binary main_v11 main_v12 main_v13 Host.divf,
    nullary main_cst_3 (constant S_ .f32 0x42000000#32),
    unary main_cst_3 main_v14 (broadcastInDim S32x1048576 ![] bcast_S_S32x1048576),
    binary main_v13 main_v14 main_v15 mulf,
    unary main_v15 main_v16 Host.floor,
    unary main_v16 main_v17 (fptosi 32),
    nullary main_c (constantI S_ 32 0#32),
    nullary main_c_4 (constantI S_ 32 31#32),
    TRef.unary (.of main_c) main_call1.v0 id,
    TRef.unary main_call1.v0 main_call1.v1 (broadcastInDim S32x1048576 ![] bcast_S_S32x1048576),
    TRef.binary main_call1.v1 (.of main_v17) main_call1.v2 maxsi,
    TRef.unary (.of main_c_4) main_call1.v3 id,
    TRef.unary main_call1.v3 main_call1.v4 (broadcastInDim S32x1048576 ![] bcast_S_S32x1048576),
    TRef.binary main_call1.v4 main_call1.v2 main_call1.v5 minsi ]
theorem cC_ok : Ok (F := F) 26 cC := by
  unfold cC; and_intros <;> first | exact ⟨_, rfl, by decide⟩ | exact rfl | simp
theorem cC_v18 :
    after cC W (no_index (main_v18 : DevRef τ sig)) = binsOf (W main_v0) (W main_v2) (W main_v9) := by
  unfold cC; after_results_simp; rfl

def cD : List (HloOp τ sig (Elt F)) :=
  [ nullary main_v19 (iotaInDim S32 32 0),
    unary main_v19 main_v20 (broadcastInDim S32x1 ![0] bcast_S32_S32x1_0),
    nullary main_c_5 (constantI S_ 32 32#32),
    unary main_c_5 main_v21 (broadcastInDim S32x1 ![] bcast_S_S32x1),
    binary main_v20 main_v21 main_v22 muli,
    unary main_v22 main_v23 (broadcastInDim S32x1048576 ![0, 1] bcast_S32x1_S32x1048576_0_1),
    binary main_v18 main_v23 main_v24 addi,
    reshape main_v24 main_v25 rfl shapeCasts_S32x1048576_S33554432,
    nullary main_cst_6 (constant S_ .f32 0x00000000#32),
    unary main_cst_6 main_v26 (broadcastInDim S1024 ![] bcast_S_S1024),
    nullary main_c_7 (constantI S_ 32 0#32),
    unary main_c_7 main_v27 (broadcastInDim S33554432 ![] bcast_S_S33554432),
    binary main_v25 main_v27 main_v28 (cmpi .slt),
    nullary main_c_8 (constantI S_ 32 1024#32),
    unary main_c_8 main_v29 (broadcastInDim S33554432 ![] bcast_S_S33554432),
    binary main_v25 main_v29 main_v30 addi,
    ternary main_v28 main_v30 main_v25 main_v31 select,
    unary main_v31 main_v32 (broadcastInDim S33554432x1 ![0] bcast_S33554432_S33554432x1_0),
    nullary main_cst_9 (constant S_ .f32 0x3F800000#32),
    unary main_cst_9 main_v33 (broadcastInDim S33554432 ![] bcast_S_S33554432),
    ternary main_v26 main_v32 main_v33 main_v34 (fun x i u => Host.scatterAdd scatter_S1024_S33554432x1_S33554432_n_0_0_1 x i u),
    reshape main_v34 main_v35 rfl shapeCasts_S1024_S32x32 ]
theorem cD_ok : Ok (F := F) 43 cD := by
  unfold cD; and_intros <;> first | exact ⟨_, rfl, by decide⟩ | exact rfl | simp
theorem cD_v35 :
    after cD W (no_index (main_v35 : DevRef τ sig)) = countsOf (slotVec (W main_v18)) := by
  unfold cD; after_results_simp; rfl

def cF : List (HloOp τ sig (Elt F)) :=
  [ nullary main_cst_10 (constant S_ .f32 0x00000000#32),
    binary main_v35 main_cst_10 main_v36 (fun x v => Host.reduceAdd x v reducesTo_S32x32_S32_d1 h_S_),
    unary main_v36 main_v37 (broadcastInDim S32x1 ![0] bcast_S32_S32x1_0),
    unary main_v37 main_v38 (broadcastInDim S32x32 ![0, 1] bcast_S32x1_S32x32_0_1),
    binary main_v35 main_v38 main_v39 Host.divf,
    nary ![main_v39, main_v2, main_v4] main_v40 (fun u => concatenate S32x34 1 [⟨S32x32, u 0⟩, ⟨S32x1, u 1⟩, ⟨S32x1, u 2⟩] concatenates_S32x32_S32x1_S32x1_S32x34_d1),
    binary main_v40 main_arg1 main_v41 (fun a b => concatenate S32x35 1 [⟨S32x34, a⟩, ⟨S32x1, b⟩] concatenates_S32x34_S32x1_S32x35_d1) ]
theorem cF_ok : Ok (F := F) 65 cF := by
  unfold cF; and_intros <;> first | exact ⟨_, rfl, by decide⟩ | exact rfl | simp
theorem cF_v41 :
    after cF W (no_index (main_v41 : DevRef τ sig)) = features (W main_v35) (W main_v2) (W main_v4) (W main_arg1) := by
  unfold cF; after_results_simp; rfl

def cG1 : List (HloOp τ sig (Elt F)) :=
  [ binary main_v41 main_arg2 main_v42 (fun l r => Host.dotGeneral dot_S32x35_S35x64_S32x64_1_0_0_1_n_n none l r),
    unary main_arg3 main_v43 (broadcastInDim S1x64 ![1] bcast_S64_S1x64_1),
    unary main_v43 main_v44 (broadcastInDim S32x64 ![0, 1] bcast_S1x64_S32x64_0_1),
    binary main_v42 main_v44 main_v45 addf,
    nullary main_cst_11 (constant S_ .f32 0x3C23D70A#32) ]
theorem cG1_ok : Ok (F := F) 72 cG1 := by
  unfold cG1; and_intros <;> first | exact ⟨_, rfl, by decide⟩ | exact rfl | simp

def cG2 : List (HloOp τ sig (Elt F)) :=
  lreluOps (.of main_v45) (.of main_cst_11) main_call2
theorem cG2_ok : Ok (F := F) 77 cG2 := by
  unfold cG2 lreluOps; and_intros <;> first | exact ⟨_, rfl, by decide⟩ | exact rfl | simp
theorem cG2_v46 :
    after cG2 (after cG1 W) (no_index (main_v46 : DevRef τ sig)) = lrelu64 (bias64 ((fun l r => Host.dotGeneral dot_S32x35_S35x64_S32x64_1_0_0_1_n_n none l r : TF F S32x35 → TF F S35x64 → TF F S32x64) (W main_v41) (W main_arg2)) (W main_arg3)) := by
  unfold cG1 cG2 lreluOps; after_results_simp; rfl

def cH : List (HloOp τ sig (Elt F)) :=
  binary main_v46 main_arg4 main_v47 (fun l r => Host.dotGeneral dot_S32x64_S64x64_S32x64_1_0_0_1_n_n none l r) ::
    unary main_arg5 main_v48 (broadcastInDim S1x64 ![1] bcast_S64_S1x64_1) ::
    unary main_v48 main_v49 (broadcastInDim S32x64 ![0, 1] bcast_S1x64_S32x64_0_1) ::
    binary main_v47 main_v49 main_v50 addf ::
    nullary main_cst_12 (constant S_ .f32 0x3C23D70A#32) ::
    lreluOps (.of main_v50) (.of main_cst_12) main_call3
theorem cH_ok : Ok (F := F) 84 cH := by
  unfold cH lreluOps; and_intros <;> first | exact ⟨_, rfl, by decide⟩ | exact rfl | simp
theorem cH_v51 :
    after cH W (no_index (main_v51 : DevRef τ sig)) = lrelu64 (bias64 ((fun l r => Host.dotGeneral dot_S32x64_S64x64_S32x64_1_0_0_1_n_n none l r : TF F S32x64 → TF F S64x64 → TF F S32x64) (W main_v46) (W main_arg4)) (W main_arg5)) := by
  unfold cH lreluOps; after_results_simp; rfl

def cI : List (HloOp τ sig (Elt F)) :=
  binary main_v51 main_v41 main_v52 (fun a b => concatenate S32x99 1 [⟨S32x64, a⟩, ⟨S32x35, b⟩] concatenates_S32x64_S32x35_S32x99_d1) ::
    binary main_v52 main_arg6 main_v53 (fun l r => Host.dotGeneral dot_S32x99_S99x64_S32x64_1_0_0_1_n_n none l r) ::
    unary main_arg7 main_v54 (broadcastInDim S1x64 ![1] bcast_S64_S1x64_1) ::
    unary main_v54 main_v55 (broadcastInDim S32x64 ![0, 1] bcast_S1x64_S32x64_0_1) ::
    binary main_v53 main_v55 main_v56 addf ::
    nullary main_cst_13 (constant S_ .f32 0x3C23D70A#32) ::
    lreluOps (.of main_v56) (.of main_cst_13) main_call4
theorem cI_ok : Ok (F := F) 96 cI := by
  unfold cI lreluOps; and_intros <;> first | exact ⟨_, rfl, by decide⟩ | exact rfl | simp
theorem cI_v57 :
    after cI W (no_index (main_v57 : DevRef τ sig)) = lrelu64 (bias64 ((fun l r => Host.dotGeneral dot_S32x99_S99x64_S32x64_1_0_0_1_n_n none l r : TF F S32x99 → TF F S99x64 → TF F S32x64) (cat99 (W main_v51) (W main_v41)) (W main_arg6)) (W main_arg7)) := by
  unfold cI lreluOps; after_results_simp; rfl

def cJ : List (HloOp τ sig (Elt F)) :=
  binary main_v57 main_arg8 main_v58 (fun l r => Host.dotGeneral dot_S32x64_S64x64_S32x64_1_0_0_1_n_n none l r) ::
    unary main_arg9 main_v59 (broadcastInDim S1x64 ![1] bcast_S64_S1x64_1) ::
    unary main_v59 main_v60 (broadcastInDim S32x64 ![0, 1] bcast_S1x64_S32x64_0_1) ::
    binary main_v58 main_v60 main_v61 addf ::
    nullary main_cst_14 (constant S_ .f32 0x3C23D70A#32) ::
    lreluOps (.of main_v61) (.of main_cst_14) main_call5
theorem cJ_ok : Ok (F := F) 109 cJ := by
  unfold cJ lreluOps; and_intros <;> first | exact ⟨_, rfl, by decide⟩ | exact rfl | simp
theorem cJ_v62 :
    after cJ W (no_index (main_v62 : DevRef τ sig)) = lrelu64 (bias64 ((fun l r => Host.dotGeneral dot_S32x64_S64x64_S32x64_1_0_0_1_n_n none l r : TF F S32x64 → TF F S64x64 → TF F S32x64) (W main_v57) (W main_arg8)) (W main_arg9)) := by
  unfold cJ lreluOps; after_results_simp; rfl

def cK : List (HloOp τ sig (Elt F)) :=
  [ binary main_v62 main_arg10 main_v63 (fun l r => Host.dotGeneral dot_S32x64_S64x4_S32x4_1_0_0_1_n_n none l r),
    unary main_arg11 main_v64 (broadcastInDim S1x4 ![1] bcast_S4_S1x4_1),
    unary main_v64 main_v65 (broadcastInDim S32x4 ![0, 1] bcast_S1x4_S32x4_0_1),
    binary main_v63 main_v65 main_v66 addf,
    nullary main_cst_15 (constant S_ .f32 0x3C23D70A#32),
    TRef.nullary main_call6.cst (constant S_ .f32 0x00000000#32),
    TRef.unary main_call6.cst main_call6.v0 (broadcastInDim S32x4 ![] bcast_S_S32x4),
    TRef.binary (.of main_v66) main_call6.v0 main_call6.v1 (cmpf .oge),
    TRef.unary (.of main_cst_15) main_call6.v2 id,
    TRef.unary main_call6.v2 main_call6.v3 (broadcastInDim S32x4 ![] bcast_S_S32x4),
    TRef.binary main_call6.v3 (.of main_v66) main_call6.v4 mulf,
    TRef.ternary main_call6.v1 (.of main_v66) main_call6.v4 main_call6.call0.v0 select ]
theorem cK_ok : Ok (F := F) 121 cK := by
  unfold cK; and_intros <;> first | exact ⟨_, rfl, by decide⟩ | exact rfl | simp
theorem cK_v67 :
    after cK W (no_index (main_v67 : DevRef τ sig)) = lrelu4 (addf ((fun l r => Host.dotGeneral dot_S32x64_S64x4_S32x4_1_0_0_1_n_n none l r : TF F S32x64 → TF F S64x4 → TF F S32x4) (W main_v62) (W main_arg10)) (broadcastInDim S32x4 ![0, 1] bcast_S1x4_S32x4_0_1 (broadcastInDim S1x4 ![1] bcast_S4_S1x4_1 (W main_arg11)))) := by
  unfold cK; after_results_simp; rfl

def cL0 : List (HloOp τ sig (Elt F)) :=
  stepOps slices_S32x4_S32x1_0_0 (.of main_arg0) (.of main_v68) (.of main_v69) (.of main_v70) (.of main_v71) (.of main_v72) (.of main_v73) (.of main_v74) (.of main_v75)
theorem cL0_ok : Ok (F := F) 133 cL0 := by
  unfold cL0 stepOps; and_intros <;> first | exact ⟨_, rfl, by decide⟩ | exact rfl | simp
theorem cL0_v75 :
    after cL0 W (no_index (main_v75 : DevRef τ sig)) = step (spread0 (W main_v67)) (W main_arg0) := by
  unfold cL0 stepOps; after_results_simp; rfl

def cL1 : List (HloOp τ sig (Elt F)) :=
  stepOps slices_S32x4_S32x1_0_1 (.of main_v75) (.of main_v76) (.of main_v77) (.of main_v78) (.of main_v79) (.of main_v80) (.of main_v81) (.of main_v82) (.of main_v83)
theorem cL1_ok : Ok (F := F) 141 cL1 := by
  unfold cL1 stepOps; and_intros <;> first | exact ⟨_, rfl, by decide⟩ | exact rfl | simp
theorem cL1_v83 :
    after cL1 W (no_index (main_v83 : DevRef τ sig)) = step (spread1 (W main_v67)) (W main_v75) := by
  unfold cL1 stepOps; after_results_simp; rfl

def cL2 : List (HloOp τ sig (Elt F)) :=
  stepOps slices_S32x4_S32x1_0_2 (.of main_v83) (.of main_v84) (.of main_v85) (.of main_v86) (.of main_v87) (.of main_v88) (.of main_v89) (.of main_v90) (.of main_v91)
theorem cL2_ok : Ok (F := F) 149 cL2 := by
  unfold cL2 stepOps; and_intros <;> first | exact ⟨_, rfl, by decide⟩ | exact rfl | simp
theorem cL2_v91 :
    after cL2 W (no_index (main_v91 : DevRef τ sig)) = step (spread2 (W main_v67)) (W main_v83) := by
  unfold cL2 stepOps; after_results_simp; rfl

def cL3 : List (HloOp τ sig (Elt F)) :=
  stepOps slices_S32x4_S32x1_0_3 (.of main_v91) (.of main_v92) (.of main_v93) (.of main_v94) (.of main_v95) (.of main_v96) (.of main_v97) (.of main_v98) (.of main_v99)
theorem cL3_ok : Ok (F := F) 157 cL3 := by
  unfold cL3 stepOps; and_intros <;> first | exact ⟨_, rfl, by decide⟩ | exact rfl | simp
theorem cL3_v99 :
    after cL3 W (no_index (main_v99 : DevRef τ sig)) = step (spread3 (W main_v67)) (W main_v91) := by
  unfold cL3 stepOps; after_results_simp; rfl

end Cert.ReferenceIdeal.RefRun

end
-- ==== Proof.RefRun.lean ====
import proofs.«104984_j16939351016189_1_alg».proof.Proof.RefRunA

set_option Elab.async false

noncomputable section

namespace Cert.ReferenceIdeal.RefRun

open Cert.ReferenceIdeal Idealize.ShloMosaic Idealize.ShloMosaic.TcCoe Idealize.SL.Sem Idealize.ShloMosaic.StableHlo Stages

variable {F : FTy → Type} [FloatOps F] [Cert.ReferenceIdeal.Facts]
open Facts₀ Facts

def ops_part0 : List (HloOp τ sig (Elt F)) := cA ++ (cC ++ (cD ++ (cF ++ cG1)))
def ops_part1 : List (HloOp τ sig (Elt F)) := cG2 ++ (cH ++ (cI ++ (cJ ++ (cK ++ (cL0 ++ (cL1 ++ (cL2 ++ cL3)))))))
def ops : List (HloOp τ sig (Elt F)) := ops_part0 ++ ops_part1

theorem main_part0_eq (c : Dev nD) : main_part0 (F := F) c = seq ops_part0 := rfl
theorem main_part1_eq (c : Dev nD) : main_part1 (F := F) c = seq ops_part1 := rfl
theorem main_eq (c : Dev nD) : main (F := F) c = seq ops := by
  show _ = seq (ops_part0 ++ ops_part1)
  rw [seq_append, ← main_part0_eq c, ← main_part1_eq c]; rfl

theorem scopedRefs_eq : (Finset.univ.filter fun b : Ref sig .tc => b.isScoped) = ∅ := by decide
theorem scopedSems_eq : (Finset.univ.filter fun sm : SemLoc sig => sm.isScoped .tc) = ∅ := by decide

theorem ops_ok : Ok (F := F) 12 ops :=
  (cA_ok.append (cC_ok.append (cD_ok.append (cF_ok.append cG1_ok)))).append (cG2_ok.append (cH_ok.append (cI_ok.append (cJ_ok.append (cK_ok.append (cL0_ok.append (cL1_ok.append (cL2_ok.append cL3_ok))))))))

/-- The result buffer after the whole line: each stage's value at what the earlier stages leave. -/
theorem result_eq (V : Valuation τ sig (Elt F)) :
    after ops V main_v99 = result (V main_arg0) (V main_arg1) (V main_arg2) (V main_arg3) (V main_arg4) (V main_arg5) (V main_arg6) (V main_arg7) (V main_arg8) (V main_arg9) (V main_arg10) (V main_arg11) := by
  simp (disch := decide) only [ops, ops_part0, ops_part1, after_append,
    cA_v0, cA_v2, cA_v4, cA_v9, cC_v18, cD_v35, cF_v41, cG2_v46, cH_v51, cI_v57, cJ_v62, cK_v67, cL0_v75, cL1_v83, cL2_v91, cL3_v99,
    cA_ok.keep, cC_ok.keep, cD_ok.keep, cF_ok.keep, cG1_ok.keep, cG2_ok.keep, cH_ok.keep, cI_ok.keep, cJ_ok.keep, cK_ok.keep, cL0_ok.keep, cL1_ok.keep, cL2_ok.keep, cL3_ok.keep]
  rfl

theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread nD τ).loc main_v99) = Cert.ReferenceIdeal.Stages.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => by
      refine ⟨(h c _).trans (result_eq _), ?_⟩
      and_intros <;> exact (h c _).trans (ops_ok.keep (launchContents m c) (by decide)))
    (run_seq scopedRefs_eq scopedSems_eq defs main (fun _ => ops) main_eq (fun _ => ops_ok.imp fun _ h => h.1) m ρ
      fun _ op hop => (List.forall_iff_forall_mem.mp ops_ok op hop).2.1)

theorem run_frame (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.ReferenceIdeal.RefRun

end
-- ==== Proof.lean ====
/- The kernel program (each image's extremes, a 32-bin histogram between them, a small dense network giving four
   coefficients per image, four steps v ↦ v + a·(v − v·v)) against the reference: both end at one function of the
   twelve arguments, the reference's composed stages. -/
import proofs.«104984_j16939351016189_1_alg».proof.Defs
import proofs.«104984_j16939351016189_1_alg».proof.Proof.Gen.Kernel
import proofs.«104984_j16939351016189_1_alg».proof.Proof.Gen.KernelIdeal
import proofs.«104984_j16939351016189_1_alg».proof.Proof.Gen.ReferenceIdeal
import proofs.«104984_j16939351016189_1_alg».proof.Proof.Gen.Pre_finite_inputs
import proofs.«104984_j16939351016189_1_alg».proof.Proof.BitsRunArgs
import proofs.«104984_j16939351016189_1_alg».proof.Proof.Assemble
import proofs.«104984_j16939351016189_1_alg».proof.Proof.RefRun
import Idealize.ShloMosaic.Adequacy
import Idealize.ShloMosaic.Init

noncomputable section

namespace Cert.Proof

open Idealize.ShloMosaic Idealize.SL.Sem

-- Each kernel program's run ends with every unscoped buffer at the fold of its items; no item writes an argument.
theorem frame_p : Cert.frame_Kernel := fun m ρ _ =>
  (θ_run _ _ _).mono (fun _ h c => by and_intros <;> exact Cert.Kernel.Hand.kept m c _ (h c)) (Cert.Kernel.Hand.run_all (F := Bits) m ρ)

theorem frame_pi : Cert.frame_KernelIdeal := fun m ρ _ =>
  (θ_run _ _ _).mono (fun _ h c => by and_intros <;> exact Cert.KernelIdeal.Hand.kept m c _ (h c)) (Cert.KernelIdeal.Hand.run_all (F := Ideal) m ρ)

theorem algebraic : Cert.algebraic_KernelIdeal_ReferenceIdeal := by
  intro m ρ m' ρ' _ hagree
  refine ⟨_, (θ_run (Cert.KernelIdeal.defs (F := Ideal)) _ _).mono (fun _ h c =>
      ⟨(h c _ (Cert.KernelIdeal.Hand.mem_uc Cert.KernelIdeal.main_v36 (by decide))).trans (Cert.KernelIdeal.Hand.W15_v36 m c),
        by and_intros <;> exact Cert.KernelIdeal.Hand.kept m c _ (h c)⟩) (Cert.KernelIdeal.Hand.run_all m ρ),
    (θ_run (Cert.ReferenceIdeal.defs (F := Ideal)) _ _).mono (fun _ h c => ?_) (Cert.ReferenceIdeal.RefRun.run (F := Ideal) m' ρ')⟩
  obtain ⟨e0, e1, e2, e3, e4, e5, e6, e7, e8, e9, e10, e11⟩ := hagree c
  exact ⟨(h c).1.trans (by rw [e0, e1, e2, e3, e4, e5, e6, e7, e8, e9, e10, e11]), (h c).2⟩

theorem claim : Cert.Claim := ⟨Cert.Kernel.Gen.facts, Cert.KernelIdeal.Gen.facts, Cert.ReferenceIdeal.Gen.facts, Cert.Pre_finite_inputs.Gen.facts,
  frame_p, frame_pi, fun m ρ _ => Cert.ReferenceIdeal.RefRun.run_frame (F := Ideal) m ρ, trivial, algebraic⟩

end Cert.Proof

end
